-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S640000 32) (main_arg2 : IVec S640000 32) (main_v33 : IVec S_ 1) : IVec S_ 1 :=
  let main_c_12 : IVec S_ 32 := constantI S_ 32 0#32
  let main_v34 : IVec S640000 32 := broadcastInDim S640000 ![] bcast_S_S640000 main_c_12
  let main_v35 : IVec S640000 1 := cmpi .sge main_arg1 main_v34
  let main_c_13 : IVec S_ 1 := constantI S_ 1 1#1
  let main_v36 : IVec S_ 1 := (fun x v => Host.reduce IntOp.andi x v reducesTo_S640000_S_d0 h_S_) main_v35 main_c_13
  let main_v37 : IVec S_ 1 := andi main_v33 main_v36
  let main_c_14 : IVec S_ 32 := constantI S_ 32 10000#32
  let main_v38 : IVec S640000 32 := broadcastInDim S640000 ![] bcast_S_S640000 main_c_14
  let main_v39 : IVec S640000 1 := cmpi .slt main_arg1 main_v38
  let main_c_15 : IVec S_ 1 := constantI S_ 1 1#1
  let main_v40 : IVec S_ 1 := (fun x v => Host.reduce IntOp.andi x v reducesTo_S640000_S_d0 h_S_) main_v39 main_c_15
  let main_v41 : IVec S_ 1 := andi main_v37 main_v40
  let main_c_16 : IVec S_ 32 := constantI S_ 32 0#32
  let main_v42 : IVec S640000 32 := broadcastInDim S640000 ![] bcast_S_S640000 main_c_16
  let main_v43 : IVec S640000 1 := cmpi .sge main_arg2 main_v42
  let main_c_17 : IVec S_ 1 := constantI S_ 1 1#1
  let main_v44 : IVec S_ 1 := (fun x v => Host.reduce IntOp.andi x v reducesTo_S640000_S_d0 h_S_) main_v43 main_c_17
  let main_v45 : IVec S_ 1 := andi main_v41 main_v44
  let main_c_18 : IVec S_ 32 := constantI S_ 32 10000#32
  let main_v46 : IVec S640000 32 := broadcastInDim S640000 ![] bcast_S_S640000 main_c_18
  let main_v47 : IVec S640000 1 := cmpi .slt main_arg2 main_v46
  let main_c_19 : IVec S_ 1 := constantI S_ 1 1#1
  let main_v48 : IVec S_ 1 := (fun x v => Host.reduce IntOp.andi x v reducesTo_S640000_S_d0 h_S_) main_v47 main_c_19
  let main_v49 : IVec S_ 1 := andi main_v45 main_v48
  main_v49

def fn_part1 {F : FTy → Type} [FloatOps F] (main_arg1 : IVec S640000 32) (main_arg2 : IVec S640000 32) (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_v33

def fn {F : FTy → Type} [FloatOps F] (main_arg0 : FVec F S10000x128 .f32) (main_arg1 : IVec S640000 32) (main_arg2 : IVec S640000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10240 : Shape := ⟨1, ![10240]⟩
abbrev S640000x1 : Shape := ⟨2, ![640000, 1]⟩
abbrev S10240x1 : Shape := ⟨2, ![10240, 1]⟩
abbrev S10240x10240 : Shape := ⟨2, ![10240, 10240]⟩
abbrev S640000x2 : Shape := ⟨2, ![640000, 2]⟩
abbrev S10240x128 : Shape := ⟨2, ![10240, 128]⟩
abbrev S1x128 : Shape := ⟨2, ![1, 128]⟩
abbrev S1024x2048 : Shape := ⟨2, ![1024, 2048]⟩
abbrev S2048x128 : Shape := ⟨2, ![2048, 128]⟩
abbrev S1024x128 : Shape := ⟨2, ![1024, 128]⟩
abbrev S1024x1 : Shape := ⟨2, ![1024, 1]⟩

abbrev nBuf : Space → Nat
  | .hbm => 62
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S10240, .f32⟩
  | .hbm, ⟨13, _⟩ => ⟨S640000x1, .i32⟩
  | .hbm, ⟨14, _⟩ => ⟨S10240, .f32⟩
  | .hbm, ⟨15, _⟩ => ⟨S_, .f32⟩
  | .hbm, ⟨16, _⟩ => ⟨S10240, .f32⟩
  | .hbm, ⟨17, _⟩ => ⟨S10240, .f32⟩
  | .hbm, ⟨18, _⟩ => ⟨S_, .f32⟩
  | .hbm, ⟨19, _⟩ => ⟨S10240, .f32⟩
  | .hbm, ⟨20, _⟩ => ⟨S10240, .f32⟩
  | .hbm, ⟨21, _⟩ => ⟨S10240x1, .f32⟩
  | .hbm, ⟨22, _⟩ => ⟨S_, .f32⟩
  | .hbm, ⟨23, _⟩ => ⟨S10240x10240, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x1, .i32⟩
  | .hbm, ⟨40, _⟩ => ⟨S640000x2, .i32⟩
  | .hbm, ⟨41, _⟩ => ⟨S_, .f32⟩
  | .hbm, ⟨42, _⟩ => ⟨S640000, .f32⟩
  | .hbm, ⟨43, _⟩ => ⟨S10240x10240, .f32⟩
  | .hbm, ⟨44, _⟩ => ⟨S10240x10240, .bf16⟩
  | .hbm, ⟨45, _⟩ => ⟨S_, .i32⟩
  | .hbm, ⟨46, _⟩ => ⟨S_, .f32⟩
  | .hbm, ⟨47, _⟩ => ⟨S10240x128, .f32⟩
  | .hbm, ⟨48, _⟩ => ⟨S10240x128, .bf16⟩
  | .hbm, ⟨49, _⟩ => ⟨S128x128, .f32⟩
  | .hbm, ⟨50, _⟩ => ⟨S128x128, .bf16⟩
  | .hbm, ⟨51, _⟩ => ⟨S128x128, .f32⟩
  | .hbm, ⟨52, _⟩ => ⟨S128x128, .bf16⟩
  | .hbm, ⟨53, _⟩ => ⟨S1x128, .f32⟩
  | .hbm, ⟨54, _⟩ => ⟨S10240x128, .bf16⟩
  | .hbm, ⟨55, _⟩ => ⟨S128x128, .f32⟩
  | .hbm, ⟨56, _⟩ => ⟨S128x128, .bf16⟩
  | .hbm, ⟨57, _⟩ => ⟨S128x128, .f32⟩
  | .hbm, ⟨58, _⟩ => ⟨S128x128, .bf16⟩
  | .hbm, ⟨59, _⟩ => ⟨S1x128, .f32⟩
  | .hbm, ⟨60, _⟩ => ⟨S10240x128, .f32⟩
  | .hbm, ⟨61, _⟩ => ⟨S10000x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1024x1, .f32⟩
  | .local _ .vmem, ⟨10, _⟩ => ⟨S1024x1, .f32⟩
  | .local _ .vmem, ⟨11, _⟩ => ⟨S1024x128, .bf16⟩
  | .local _ .vmem, ⟨12, _⟩ => ⟨S1024x128, .bf16⟩
  | .local _ .vmem, ⟨13, _⟩ => ⟨S1024x128, .f32⟩
  | .local _ .vmem, ⟨14, _⟩ => ⟨S1024x2048, .bf16⟩
  | .local _ .vmem, ⟨15, _⟩ => ⟨S1024x2048, .bf16⟩
  | .local _ .vmem, ⟨16, _⟩ => ⟨S2048x128, .bf16⟩
  | .local _ .vmem, ⟨17, _⟩ => ⟨S2048x128, .bf16⟩
  | .local _ .vmem, ⟨18, _⟩ => ⟨S1024x128, .bf16⟩
  | .local _ .vmem, ⟨19, _⟩ => ⟨S1024x128, .bf16⟩
  | .local _ .vmem, ⟨20, _⟩ => ⟨S128x128, .bf16⟩
  | .local _ .vmem, ⟨21, _⟩ => ⟨S128x128, .bf16⟩
  | .local _ .vmem, ⟨22, _⟩ => ⟨S1x128, .f32⟩
  | .local _ .vmem, ⟨23, _⟩ => ⟨S1024x1, .f32⟩
  | .local _ .vmem, ⟨24, _⟩ => ⟨S1024x1, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_call0_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![10, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![10, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  bcast_S_S640000 : S_.BroadcastsInDim S640000 (![] : Fin 0 → Fin S640000.rank)
  bcast_S_S10240 : S_.BroadcastsInDim S10240 (![] : Fin 0 → Fin S10240.rank)
  bcast_S640000_S640000x1_0 : S640000.BroadcastsInDim S640000x1 (![0] : Fin 1 → Fin S640000x1.rank)
  shapeCasts_S10240_S10240x1 : S10240.ShapeCasts S10240x1
  bcast_S_S10240x10240 : S_.BroadcastsInDim S10240x10240 (![] : Fin 0 → Fin S10240x10240.rank)
  concatenates_S640000x1_S640000x1_S640000x2_d1 : Shape.Concatenates [S640000x1, S640000x1] S640000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  transposes_S128x128_S128x128_1_0 : S128x128.Transposes [1, 0] S128x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  packedbf16_S1024x128_S1024x128_0_0 : (Rect.unit (s := S1024x128) ![0, 0] S1024x128.size inb_S1024x128_S1024x128_0_0).PackedRows (EltTy.packing .bf16)
  slices_S10240x128_S10000x128_0_0 : S10240x128.Slices ![0, 0] S10000x128
  scatter_S10240_S640000x1_S640000_n_0_0_1_wf : ScatterDims.WF S10240 S640000x1 S640000 [] [0] [0] 1
  scatter_S10240x10240_S640000x2_S640000_n_01_01_1_wf : ScatterDims.WF S10240x10240 S640000x2 S640000 [] [0, 1] [0, 1] 1
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S10240x10240.size a
  hwx0_0 : ∀ i : grid0.Coords, EltTy.bits .bf16 = 32 ∨ (Rect.block (s := S10240x10240) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S10240x128.size a
  hwx0_1 : ∀ i : grid0.Coords, EltTy.bits .bf16 = 32 ∨ (Rect.block (s := S10240x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S10240x128.size a
  hwx0_2 : ∀ i : grid0.Coords, EltTy.bits .bf16 = 32 ∨ (Rect.block (s := S10240x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S10240x1.size a
  hwx0_6 : ∀ i : grid0.Coords, EltTy.bits .f32 = 32 ∨ (Rect.block (s := S10240x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S10240x128.size a
  hwx0_7 : ∀ i : grid0.Coords, EltTy.bits .bf16 = 32 ∨ (Rect.block (s := S10240x128) S1024x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S10240x128.size a
  hwx1_1 : ∀ i : grid1.Coords, EltTy.bits .bf16 = 32 ∨ (Rect.block (s := S10240x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S10240x128.size a
  hwx1_2 : ∀ i : grid1.Coords, EltTy.bits .bf16 = 32 ∨ (Rect.block (s := S10240x128) S1024x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S10240x1.size a
  hwx1_6 : ∀ i : grid1.Coords, EltTy.bits .f32 = 32 ∨ (Rect.block (s := S10240x1) S1024x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S10240x128.size a
  hwx1_7 : ∀ i : grid1.Coords, EltTy.bits .f32 = 32 ∨ (Rect.block (s := S10240x128) S1024x128.size (cc1_transform_7 i) (hinb1_7 i)).WholeWords (EltTy.packing .f32)

variable [Facts₀]

def scatter_S10240_S640000x1_S640000_n_0_0_1 : ScatterDims S10240 S640000x1 S640000 where
  updateWindowDims := []
  insertedWindowDims := [0]
  scatterDimsToOperandDims := [0]
  indexVectorDim := 1
  wf := scatter_S10240_S640000x1_S640000_n_0_0_1_wf
def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v25) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v25) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1024x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v39) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S10000, .f32⟩
  | .hbm, ⟨26, _⟩ => ⟨S640000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S128x128, .f32⟩
  | .hbm, ⟨35, _⟩ => ⟨S10000x128, .f32⟩
  | .hbm, ⟨36, _⟩ => ⟨S128x128, .f32⟩
  | .hbm, ⟨37, _⟩ => ⟨S10000x128, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S_, .f32⟩
  | .hbm, ⟨55, _⟩ => ⟨S10000x128, .f32⟩
  | .hbm, ⟨56, _⟩ => ⟨S640000x1, .i32⟩
  | .hbm, ⟨57, _⟩ => ⟨S10000x128, .f32⟩
  | .hbm, ⟨58, _⟩ => ⟨S_, .f32⟩
  | .hbm, ⟨59, _⟩ => ⟨S640000, .f32⟩
  | .hbm, ⟨60, _⟩ => ⟨S_, .f32⟩
  | .hbm, ⟨61, _⟩ => ⟨S10000, .f32⟩
  | .hbm, ⟨62, _⟩ => ⟨S640000x1, .i32⟩
  | .hbm, ⟨63, _⟩ => ⟨S10000, .f32⟩
  | .hbm, ⟨64, _⟩ => ⟨S_, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x128, .f32⟩
  | .hbm, ⟨69, _⟩ => ⟨S10000x128, .f32⟩
  | .hbm, ⟨70, _⟩ => ⟨S128x128, .f32⟩
  | .hbm, ⟨71, _⟩ => ⟨S10000x128, .f32⟩
  | .hbm, ⟨72, _⟩ => ⟨S128x128, .f32⟩
  | .hbm, ⟨73, _⟩ => ⟨S10000x128, .f32⟩
  | .hbm, ⟨74, _⟩ => ⟨S10000x128, .f32⟩
  | .hbm, ⟨75, _⟩ => ⟨S1x128, .f32⟩
  | .hbm, ⟨76, _⟩ => ⟨S10000x128, .f32⟩
  | .hbm, ⟨77, _⟩ => ⟨S10000x128, .f32⟩
  | .hbm, ⟨78, _⟩ => ⟨S_, .f32⟩
  | .hbm, ⟨79, _⟩ => ⟨S10000x128, .f32⟩
  | .hbm, ⟨80, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KI.Arrays0.lean ====
import proofs.«404208_j53145925321203_2_alg».proof.Proof.Gen.KernelIdeal.Launch
import Idealize.ShloMosaic.Lib.Pipeline.Kit

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

theorem arrRefs0_eq : Finset.univ.image (Pipeline.arrRef spec0) = ([main_v25, main_v27, main_v29, main_v31, main_v32, main_v8, main_v33] : List (Ref sig .tc)).toFinset := by
  ext b
  simp only [Finset.mem_image, Finset.mem_univ, true_and, List.mem_toFinset, List.mem_cons, List.not_mem_nil, or_false]
  constructor
  · rintro ⟨w, rfl⟩
    match w with
    | ⟨0, _⟩ => exact Or.inl rfl
    | ⟨1, _⟩ => exact Or.inr (Or.inl rfl)
    | ⟨2, _⟩ => exact Or.inr (Or.inl rfl)
    | ⟨3, _⟩ => exact Or.inr (Or.inr (Or.inl rfl))
    | ⟨4, _⟩ => exact Or.inr (Or.inr (Or.inr (Or.inl rfl)))
    | ⟨5, _⟩ => exact Or.inr (Or.inr (Or.inr (Or.inr (Or.inl rfl))))
    | ⟨6, _⟩ => exact Or.inr (Or.inr (Or.inr (Or.inr (Or.inr (Or.inl rfl)))))
    | ⟨7, _⟩ => exact Or.inr (Or.inr (Or.inr (Or.inr (Or.inr (Or.inr rfl)))))
  · rintro (rfl | rfl | rfl | rfl | rfl | rfl | rfl)
    · exact ⟨0, rfl⟩
    · exact ⟨1, rfl⟩
    · exact ⟨3, rfl⟩
    · exact ⟨4, rfl⟩
    · exact ⟨5, rfl⟩
    · exact ⟨6, rfl⟩
    · exact ⟨7, rfl⟩

set_option maxHeartbeats 4000000 in

-- Windows 1 and 2 read one array: its two halves of ownership make the whole.
theorem arrays0_iff {c : Dev nD} (dat : Dat τ (Elt F) Unit ℕ (UR sig nD τ) ℕ cfg0 c)
    (hq1 : dat.q 1 = fullShare.left) (hq2 : dat.q 2 = fullShare.right)
    (hq : ∀ w : Fin cfg0.W, w ≠ 1 → w ≠ 2 → dat.q w = fullShare)
    (G : (w : Fin cfg0.W) → Buf (Elt F) ((cfg0.win w).arr.view.loc (c.tc : Thread nD τ)))
    (V' : (b : Ref sig .tc) → Buf (Elt F) ((c.tc : Thread nD τ).loc b))
    (hG : ∀ w, G w = V' (Pipeline.arrRef spec0 w)) :
    (dat.arrays G : sProp 𝕄) ⊣⊢ Pipeline.arrBufs spec0 c V' := by
  have hs : ∀ w : Fin cfg0.W, w ≠ 1 → w ≠ 2 → dat.share w = fullShare := fun w h1 h2 => by
    unfold Dat.share; split
    · rfl
    · exact hq w h1 h2
  have hs1 : dat.share 1 = fullShare.left := by unfold Dat.share; exact hq1
  have hs2 : dat.share 2 = fullShare.right := by unfold Dat.share; exact hq2
  have e0 : ((cfg0.win 0).arr.view.loc (c.tc : Thread nD τ) ↦[(cfg0.win 0).arr.view.set]{dat.share 0} G 0 : sProp 𝕄)
      = (((c.tc : Thread nD τ).loc main_v25) ↦{fullShare} V' main_v25) := by
    rw [(arr_whole0 0).set_eq_univ, hs 0 (by decide) (by decide), hG 0]
  have e1 : ((cfg0.win 1).arr.view.loc (c.tc : Thread nD τ) ↦[(cfg0.win 1).arr.view.set]{dat.share 1} G 1 : sProp 𝕄)
      = (((c.tc : Thread nD τ).loc main_v27) ↦{fullShare.left} V' main_v27) := by
    rw [(arr_whole0 1).set_eq_univ, hs1, hG 1]
  have e2 : ((cfg0.win 2).arr.view.loc (c.tc : Thread nD τ) ↦[(cfg0.win 2).arr.view.set]{dat.share 2} G 2 : sProp 𝕄)
      = (((c.tc : Thread nD τ).loc main_v27) ↦{fullShare.right} V' main_v27) := by
    rw [(arr_whole0 2).set_eq_univ, hs2, hG 2]
  have e3 : ((cfg0.win 3).arr.view.loc (c.tc : Thread nD τ) ↦[(cfg0.win 3).arr.view.set]{dat.share 3} G 3 : sProp 𝕄)
      = (((c.tc : Thread nD τ).loc main_v29) ↦{fullShare} V' main_v29) := by
    rw [(arr_whole0 3).set_eq_univ, hs 3 (by decide) (by decide), hG 3]
  have e4 : ((cfg0.win 4).arr.view.loc (c.tc : Thread nD τ) ↦[(cfg0.win 4).arr.view.set]{dat.share 4} G 4 : sProp 𝕄)
      = (((c.tc : Thread nD τ).loc main_v31) ↦{fullShare} V' main_v31) := by
    rw [(arr_whole0 4).set_eq_univ, hs 4 (by decide) (by decide), hG 4]
  have e5 : ((cfg0.win 5).arr.view.loc (c.tc : Thread nD τ) ↦[(cfg0.win 5).arr.view.set]{dat.share 5} G 5 : sProp 𝕄)
      = (((c.tc : Thread nD τ).loc main_v32) ↦{fullShare} V' main_v32) := by
    rw [(arr_whole0 5).set_eq_univ, hs 5 (by decide) (by decide), hG 5]
  have e6 : ((cfg0.win 6).arr.view.loc (c.tc : Thread nD τ) ↦[(cfg0.win 6).arr.view.set]{dat.share 6} G 6 : sProp 𝕄)
      = (((c.tc : Thread nD τ).loc main_v8) ↦{fullShare} V' main_v8) := by
    rw [(arr_whole0 6).set_eq_univ, hs 6 (by decide) (by decide), hG 6]
  have e7 : ((cfg0.win 7).arr.view.loc (c.tc : Thread nD τ) ↦[(cfg0.win 7).arr.view.set]{dat.share 7} G 7 : sProp 𝕄)
      = (((c.tc : Thread nD τ).loc main_v33) ↦{fullShare} V' main_v33) := by
    rw [(arr_whole0 7).set_eq_univ, hs 7 (by decide) (by decide), hG 7]
  have hsh : (((c.tc : Thread nD τ).loc main_v27) ↦{fullShare} V' main_v27 : sProp 𝕄)
      ⊣⊢ iprop((((c.tc : Thread nD τ).loc main_v27) ↦{fullShare.left} V' main_v27) ∗ (((c.tc : Thread nD τ).loc main_v27) ↦{fullShare.right} V' main_v27)) :=
    pointsTo_share (PosShare.mem_left_op_right fullShare)
  unfold Dat.arrays Pipeline.arrBufs
  rw [bigSep_W0, bigSep_eq_bigSepL_of_eq _ arrRefs0_eq (List.nodup_iff_count_le_one.mpr (by decide))]
  show (_ : sProp 𝕄) ⊣⊢ iprop((((c.tc : Thread nD τ).loc main_v25) ↦{fullShare} V' main_v25) ∗ (((c.tc : Thread nD τ).loc main_v27) ↦{fullShare} V' main_v27) ∗ (((c.tc : Thread nD τ).loc main_v29) ↦{fullShare} V' main_v29) ∗ (((c.tc : Thread nD τ).loc main_v31) ↦{fullShare} V' main_v31) ∗ (((c.tc : Thread nD τ).loc main_v32) ↦{fullShare} V' main_v32) ∗ (((c.tc : Thread nD τ).loc main_v8) ↦{fullShare} V' main_v8) ∗ (((c.tc : Thread nD τ).loc main_v33) ↦{fullShare} V' main_v33))
  rw [e0, e1, e2, e3, e4, e5, e6, e7]
  constructor
  · iintro ⟨H0, H1, H2, H3, H4, H5, H6, H7⟩
    iframe H0 H3 H4 H5 H6 H7
    iapply hsh.2; isplitl [H1] <;> iassumption
  · iintro ⟨H0, H12, H3, H4, H5, H6, H7⟩
    ihave H12' := hsh.1 $$ H12
    icases H12' with ⟨H1, H2⟩
    iframe

end Cert.KernelIdeal.Fr

end
-- ==== Proof.KI.Arrays1.lean ====
import proofs.«404208_j53145925321203_2_alg».proof.Proof.Gen.KernelIdeal.Launch
import Idealize.ShloMosaic.Lib.Pipeline.Kit

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

theorem arrRefs1_eq : Finset.univ.image (Pipeline.arrRef spec1) = ([main_v25, main_v33, main_v35, main_v37, main_v38, main_v8, main_v39] : List (Ref sig .tc)).toFinset := by
  ext b
  simp only [Finset.mem_image, Finset.mem_univ, true_and, List.mem_toFinset, List.mem_cons, List.not_mem_nil, or_false]
  constructor
  · rintro ⟨w, rfl⟩
    match w with
    | ⟨0, _⟩ => exact Or.inl rfl
    | ⟨1, _⟩ => exact Or.inr (Or.inl rfl)
    | ⟨2, _⟩ => exact Or.inr (Or.inl rfl)
    | ⟨3, _⟩ => exact Or.inr (Or.inr (Or.inl rfl))
    | ⟨4, _⟩ => exact Or.inr (Or.inr (Or.inr (Or.inl rfl)))
    | ⟨5, _⟩ => exact Or.inr (Or.inr (Or.inr (Or.inr (Or.inl rfl))))
    | ⟨6, _⟩ => exact Or.inr (Or.inr (Or.inr (Or.inr (Or.inr (Or.inl rfl)))))
    | ⟨7, _⟩ => exact Or.inr (Or.inr (Or.inr (Or.inr (Or.inr (Or.inr rfl)))))
  · rintro (rfl | rfl | rfl | rfl | rfl | rfl | rfl)
    · exact ⟨0, rfl⟩
    · exact ⟨1, rfl⟩
    · exact ⟨3, rfl⟩
    · exact ⟨4, rfl⟩
    · exact ⟨5, rfl⟩
    · exact ⟨6, rfl⟩
    · exact ⟨7, rfl⟩

set_option maxHeartbeats 4000000 in

-- Windows 1 and 2 read one array: its two halves of ownership make the whole.
theorem arrays1_iff {c : Dev nD} (dat : Dat τ (Elt F) Unit ℕ (UR sig nD τ) ℕ cfg1 c)
    (hq1 : dat.q 1 = fullShare.left) (hq2 : dat.q 2 = fullShare.right)
    (hq : ∀ w : Fin cfg1.W, w ≠ 1 → w ≠ 2 → dat.q w = fullShare)
    (G : (w : Fin cfg1.W) → Buf (Elt F) ((cfg1.win w).arr.view.loc (c.tc : Thread nD τ)))
    (V' : (b : Ref sig .tc) → Buf (Elt F) ((c.tc : Thread nD τ).loc b))
    (hG : ∀ w, G w = V' (Pipeline.arrRef spec1 w)) :
    (dat.arrays G : sProp 𝕄) ⊣⊢ Pipeline.arrBufs spec1 c V' := by
  have hs : ∀ w : Fin cfg1.W, w ≠ 1 → w ≠ 2 → dat.share w = fullShare := fun w h1 h2 => by
    unfold Dat.share; split
    · rfl
    · exact hq w h1 h2
  have hs1 : dat.share 1 = fullShare.left := by unfold Dat.share; exact hq1
  have hs2 : dat.share 2 = fullShare.right := by unfold Dat.share; exact hq2
  have e0 : ((cfg1.win 0).arr.view.loc (c.tc : Thread nD τ) ↦[(cfg1.win 0).arr.view.set]{dat.share 0} G 0 : sProp 𝕄)
      = (((c.tc : Thread nD τ).loc main_v25) ↦{fullShare} V' main_v25) := by
    rw [(arr_whole1 0).set_eq_univ, hs 0 (by decide) (by decide), hG 0]
  have e1 : ((cfg1.win 1).arr.view.loc (c.tc : Thread nD τ) ↦[(cfg1.win 1).arr.view.set]{dat.share 1} G 1 : sProp 𝕄)
      = (((c.tc : Thread nD τ).loc main_v33) ↦{fullShare.left} V' main_v33) := by
    rw [(arr_whole1 1).set_eq_univ, hs1, hG 1]
  have e2 : ((cfg1.win 2).arr.view.loc (c.tc : Thread nD τ) ↦[(cfg1.win 2).arr.view.set]{dat.share 2} G 2 : sProp 𝕄)
      = (((c.tc : Thread nD τ).loc main_v33) ↦{fullShare.right} V' main_v33) := by
    rw [(arr_whole1 2).set_eq_univ, hs2, hG 2]
  have e3 : ((cfg1.win 3).arr.view.loc (c.tc : Thread nD τ) ↦[(cfg1.win 3).arr.view.set]{dat.share 3} G 3 : sProp 𝕄)
      = (((c.tc : Thread nD τ).loc main_v35) ↦{fullShare} V' main_v35) := by
    rw [(arr_whole1 3).set_eq_univ, hs 3 (by decide) (by decide), hG 3]
  have e4 : ((cfg1.win 4).arr.view.loc (c.tc : Thread nD τ) ↦[(cfg1.win 4).arr.view.set]{dat.share 4} G 4 : sProp 𝕄)
      = (((c.tc : Thread nD τ).loc main_v37) ↦{fullShare} V' main_v37) := by
    rw [(arr_whole1 4).set_eq_univ, hs 4 (by decide) (by decide), hG 4]
  have e5 : ((cfg1.win 5).arr.view.loc (c.tc : Thread nD τ) ↦[(cfg1.win 5).arr.view.set]{dat.share 5} G 5 : sProp 𝕄)
      = (((c.tc : Thread nD τ).loc main_v38) ↦{fullShare} V' main_v38) := by
    rw [(arr_whole1 5).set_eq_univ, hs 5 (by decide) (by decide), hG 5]
  have e6 : ((cfg1.win 6).arr.view.loc (c.tc : Thread nD τ) ↦[(cfg1.win 6).arr.view.set]{dat.share 6} G 6 : sProp 𝕄)
      = (((c.tc : Thread nD τ).loc main_v8) ↦{fullShare} V' main_v8) := by
    rw [(arr_whole1 6).set_eq_univ, hs 6 (by decide) (by decide), hG 6]
  have e7 : ((cfg1.win 7).arr.view.loc (c.tc : Thread nD τ) ↦[(cfg1.win 7).arr.view.set]{dat.share 7} G 7 : sProp 𝕄)
      = (((c.tc : Thread nD τ).loc main_v39) ↦{fullShare} V' main_v39) := by
    rw [(arr_whole1 7).set_eq_univ, hs 7 (by decide) (by decide), hG 7]
  have hsh : (((c.tc : Thread nD τ).loc main_v33) ↦{fullShare} V' main_v33 : sProp 𝕄)
      ⊣⊢ iprop((((c.tc : Thread nD τ).loc main_v33) ↦{fullShare.left} V' main_v33) ∗ (((c.tc : Thread nD τ).loc main_v33) ↦{fullShare.right} V' main_v33)) :=
    pointsTo_share (PosShare.mem_left_op_right fullShare)
  unfold Dat.arrays Pipeline.arrBufs
  rw [bigSep_W1, bigSep_eq_bigSepL_of_eq _ arrRefs1_eq (List.nodup_iff_count_le_one.mpr (by decide))]
  show (_ : sProp 𝕄) ⊣⊢ iprop((((c.tc : Thread nD τ).loc main_v25) ↦{fullShare} V' main_v25) ∗ (((c.tc : Thread nD τ).loc main_v33) ↦{fullShare} V' main_v33) ∗ (((c.tc : Thread nD τ).loc main_v35) ↦{fullShare} V' main_v35) ∗ (((c.tc : Thread nD τ).loc main_v37) ↦{fullShare} V' main_v37) ∗ (((c.tc : Thread nD τ).loc main_v38) ↦{fullShare} V' main_v38) ∗ (((c.tc : Thread nD τ).loc main_v8) ↦{fullShare} V' main_v8) ∗ (((c.tc : Thread nD τ).loc main_v39) ↦{fullShare} V' main_v39))
  rw [e0, e1, e2, e3, e4, e5, e6, e7]
  constructor
  · iintro ⟨H0, H1, H2, H3, H4, H5, H6, H7⟩
    iframe H0 H3 H4 H5 H6 H7
    iapply hsh.2; isplitl [H1] <;> iassumption
  · iintro ⟨H0, H12, H3, H4, H5, H6, H7⟩
    ihave H12' := hsh.1 $$ H12
    icases H12' with ⟨H1, H2⟩
    iframe

end Cert.KernelIdeal.Fr

end
-- ==== Proof.KI.Runs0.lean ====
import proofs.«404208_j53145925321203_2_alg».proof.Proof.Gen.KernelIdeal.Launch
import proofs.«404208_j53145925321203_2_alg».proof.Proof.Gen.KernelIdeal.Skeleton
import proofs.«404208_j53145925321203_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 5 = 0 :=
  (by decide +kernel : ∀ t : Fin grid0.N, cond0_0 (grid0.coords t) ↔ t.val % 5 = 0)

abbrev cond0_1 (i : grid0.Coords) : Prop := k0_cond2 i = 1#1

theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem liveAt0_5 : ∀ t : Fin cfg0.N, cfg0.idle 5 (grid0.coords t) = false := by decide +kernel

theorem liveAt0_6 : ∀ t : Fin cfg0.N, cfg0.idle 6 (grid0.coords t) = false := by decide +kernel

theorem idleAt0_7_A : ∀ t : Fin cfg0.N, cond0_0 (grid0.coords t) → ¬cond0_1 (grid0.coords t) → cfg0.idle 7 (grid0.coords t) = true := by decide +kernel

theorem noFlush0_7_A : ∀ t : Fin cfg0.N, cond0_0 (grid0.coords t) → ¬cond0_1 (grid0.coords t) → (cfg0.win 7).flush t = false := by decide +kernel

theorem idleAt0_7_B : ∀ t : Fin cfg0.N, ¬cond0_0 (grid0.coords t) → ¬cond0_1 (grid0.coords t) → cfg0.idle 7 (grid0.coords t) = true := by decide +kernel

theorem noFlush0_7_B : ∀ t : Fin cfg0.N, ¬cond0_0 (grid0.coords t) → ¬cond0_1 (grid0.coords t) → (cfg0.win 7).flush t = false := by decide +kernel

theorem liveAt0_7_C : ∀ t : Fin cfg0.N, ¬cond0_0 (grid0.coords t) → cond0_1 (grid0.coords t) → cfg0.idle 7 (grid0.coords t) = false := by decide +kernel

abbrev VO0_7 : View sig .tc .vmem S1024x128 .bf16 := (Memref.whole cc0_stg7_0 : Memref sig .tc .vmem S1024x128 .bf16).view

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)

abbrev scM0_0 : Memref sig .tc .vmem S1024x128 .f32 := Memref.whole cc0_scratch0

abbrev VS0_0 : View sig .tc .vmem S1024x128 .f32 := scM0_0.view

-- The body's arguments: the grid point, and a whole memref for each window and for the accumulator.
structure Mems0 where
  i : grid0.Coords
  arg2 : Memref sig .tc .vmem S1024x2048 .bf16
  harg2 : arg2.IsWhole
  arg3 : Memref sig .tc .vmem S2048x128 .bf16
  harg3 : arg3.IsWhole
  arg4 : Memref sig .tc .vmem S1024x128 .bf16
  harg4 : arg4.IsWhole
  arg5 : Memref sig .tc .vmem S128x128 .bf16
  harg5 : arg5.IsWhole
  arg6 : Memref sig .tc .vmem S128x128 .bf16
  harg6 : arg6.IsWhole
  arg7 : Memref sig .tc .vmem S1x128 .f32
  harg7 : arg7.IsWhole
  arg8 : Memref sig .tc .vmem S1024x1 .f32
  harg8 : arg8.IsWhole
  arg9 : Memref sig .tc .vmem S1024x128 .bf16
  harg9 : arg9.IsWhole
  arg10 : Memref sig .tc .vmem S1024x128 .f32
  harg10 : arg10.IsWhole

-- The blocks of the seven input windows.
structure Blks0 (F : FTy → Type) where
  x0 : Vec F S1024x2048 .bf16
  x1 : Vec F S2048x128 .bf16
  x2 : Vec F S1024x128 .bf16
  x3 : Vec F S128x128 .bf16
  x4 : Vec F S128x128 .bf16
  x5 : Vec F S1x128 .f32
  x6 : Vec F S1024x1 .f32

abbrev mems0 (t : Fin cfg0.N) : Mems0 :=
  ⟨grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, scM0_0, Memref.isWhole_whole _⟩

def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_scratch0), ((c : Thread nD τ).loc cc1_scratch0) ↦{fullShare} f))

-- The launch's invariant with the accumulator as a memref owned at some contents.
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA; rw [scopedRest0_eq]; unfold Rest0; simp only [scM0_0, owns_whole]; try rfl

end Cert.KernelIdeal.Fr

end
-- ==== Proof.KI.Run0A.lean ====
import proofs.«404208_j53145925321203_2_alg».proof.Proof.KI.Runs0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Case k = 0: the accumulator is reset to zero and takes the first block product.
set_option maxHeartbeats 1000000 in
noncomputable def kernelRun0_A (c : Dev nD) (M : Mems0) (hc0 : cond0_0 M.i) (hc1 : ¬cond0_1 M.i) (X : Blks0 F) :
    Σ' (L7 : List (View.Piece (Elt F) S1024x128 .bf16)), { LS0 : List (View.Piece (Elt F) S1024x128 .f32) //
      ∀ (xi7 : Vec F S1024x128 .bf16) (E : Set ℕ) (K : PUnit → sProp 𝕄),
        iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ owns (c : Thread nD τ) M.arg9 fullShare xi7 ∗ (∃ d, owns (c : Thread nD τ) M.arg10 fullShare d)
            ∗ (iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ owns (c : Thread nD τ) M.arg9 fullShare xi7 ∗ (∃ f, M.arg10.view.loc (c : Thread nD τ) ↦[M.arg10.view.set]{fullShare} M.arg10.view.writes (Elt F) f LS0)) -∗ K ⟨⟩))
          ⊢ wp frame (wpE (defs₀ (F := F)) Variants.none c none) E (cc0__sage_kernel M.i M.arg2 M.harg2 M.arg3 M.harg3 M.arg4 M.harg4 M.arg5 M.harg5 M.arg6 M.harg6 M.arg7 M.harg7 M.arg8 M.harg8 M.arg9 M.harg9 M.arg10 M.harg10) K } := by
  refine ⟨[], ?_, fun xi7 E K => ?run⟩
  case run =>
    simp only [cc0__sage_kernel_eq_skeleton]; unfold cc0__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := M.harg2.eq_unread hf0; obtain rfl := M.harg3.eq_unread hf1; obtain rfl := M.harg4.eq_unread hf2; obtain rfl := M.harg5.eq_unread hf3; obtain rfl := M.harg6.eq_unread hf4; obtain rfl := M.harg7.eq_unread hf5; obtain rfl := M.harg8.eq_unread hf6; obtain rfl := M.harg9.eq_unread hf7
    sl_exec (disch := first | exact hc0 | exact hc1)
    sl_step
    iapply Hk
    isplitl [H0]
    · iexists _; isplitr; · ipureintro; exact M.harg2.read_unread _
      iexact H0
    isplitl [H1]
    · iexists _; isplitr; · ipureintro; exact M.harg3.read_unread _
      iexact H1
    isplitl [H2]
    · iexists _; isplitr; · ipureintro; exact M.harg4.read_unread _
      iexact H2
    isplitl [H3]
    · iexists _; isplitr; · ipureintro; exact M.harg5.read_unread _
      iexact H3
    isplitl [H4]
    · iexists _; isplitr; · ipureintro; exact M.harg6.read_unread _
      iexact H4
    isplitl [H5]
    · iexists _; isplitr; · ipureintro; exact M.harg7.read_unread _
      iexact H5
    isplitl [H6]
    · iexists _; isplitr; · ipureintro; exact M.harg8.read_unread _
      iexact H6
    isplitl [H7]
    · iexists _; isplitr; · ipureintro; exact M.harg9.read_unread _
      iexact H7
    iexists _; iexact HS0

end Cert.KernelIdeal.Fr

end
-- ==== Proof.KI.Run0B.lean ====
import proofs.«404208_j53145925321203_2_alg».proof.Proof.KI.Run0A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Case 0 < k < 4: the accumulator takes one more block product.
set_option maxHeartbeats 1000000 in
noncomputable def kernelRun0_B (c : Dev nD) (M : Mems0) (hc0 : ¬cond0_0 M.i) (hc1 : ¬cond0_1 M.i) (X : Blks0 F) (xs0 : Vec F S1024x128 .f32) :
    Σ' (L7 : List (View.Piece (Elt F) S1024x128 .bf16)), { LS0 : List (View.Piece (Elt F) S1024x128 .f32) //
      ∀ (xi7 : Vec F S1024x128 .bf16) (E : Set ℕ) (K : PUnit → sProp 𝕄),
        iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ owns (c : Thread nD τ) M.arg9 fullShare xi7 ∗ owns (c : Thread nD τ) M.arg10 fullShare xs0
            ∗ (iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ owns (c : Thread nD τ) M.arg9 fullShare xi7 ∗ (∃ f, M.arg10.view.loc (c : Thread nD τ) ↦[M.arg10.view.set]{fullShare} M.arg10.view.writes (Elt F) f LS0)) -∗ K ⟨⟩))
          ⊢ wp frame (wpE (defs₀ (F := F)) Variants.none c none) E (cc0__sage_kernel M.i M.arg2 M.harg2 M.arg3 M.harg3 M.arg4 M.harg4 M.arg5 M.harg5 M.arg6 M.harg6 M.arg7 M.harg7 M.arg8 M.harg8 M.arg9 M.harg9 M.arg10 M.harg10) K } := by
  refine ⟨[], ?_, fun xi7 E K => ?run⟩
  case run =>
    simp only [cc0__sage_kernel_eq_skeleton]; unfold cc0__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := M.harg2.eq_unread hf0; obtain rfl := M.harg3.eq_unread hf1; obtain rfl := M.harg4.eq_unread hf2; obtain rfl := M.harg5.eq_unread hf3; obtain rfl := M.harg6.eq_unread hf4; obtain rfl := M.harg7.eq_unread hf5; obtain rfl := M.harg8.eq_unread hf6; obtain rfl := M.harg9.eq_unread hf7; obtain rfl := M.harg10.eq_unread hfs0
    sl_exec (disch := first | exact hc0 | exact hc1)
    sl_step
    iapply Hk
    isplitl [H0]
    · iexists _; isplitr; · ipureintro; exact M.harg2.read_unread _
      iexact H0
    isplitl [H1]
    · iexists _; isplitr; · ipureintro; exact M.harg3.read_unread _
      iexact H1
    isplitl [H2]
    · iexists _; isplitr; · ipureintro; exact M.harg4.read_unread _
      iexact H2
    isplitl [H3]
    · iexists _; isplitr; · ipureintro; exact M.harg5.read_unread _
      iexact H3
    isplitl [H4]
    · iexists _; isplitr; · ipureintro; exact M.harg6.read_unread _
      iexact H4
    isplitl [H5]
    · iexists _; isplitr; · ipureintro; exact M.harg7.read_unread _
      iexact H5
    isplitl [H6]
    · iexists _; isplitr; · ipureintro; exact M.harg8.read_unread _
      iexact H6
    isplitl [H7]
    · iexists _; isplitr; · ipureintro; exact M.harg9.read_unread _
      iexact H7
    iexists _; iexact HS0

end Cert.KernelIdeal.Fr

end
-- ==== Proof.KI.Run0C.lean ====
import proofs.«404208_j53145925321203_2_alg».proof.Proof.KI.Run0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Case k = 4: the accumulator takes the last block product, and the output block is computed from it and stored.
set_option maxHeartbeats 1000000 in
noncomputable def kernelRun0_C (c : Dev nD) (M : Mems0) (hc0 : ¬cond0_0 M.i) (hc1 : cond0_1 M.i) (X : Blks0 F) (xs0 : Vec F S1024x128 .f32) :
    Σ' (L7 : List (View.Piece (Elt F) S1024x128 .bf16)), { LS0 : List (View.Piece (Elt F) S1024x128 .f32) //
      ∀ (E : Set ℕ) (K : PUnit → sProp 𝕄),
        iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ (∃ d, owns (c : Thread nD τ) M.arg9 fullShare d) ∗ owns (c : Thread nD τ) M.arg10 fullShare xs0
            ∗ (iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ (∃ f, M.arg9.view.loc (c : Thread nD τ) ↦[M.arg9.view.set]{fullShare} M.arg9.view.writes (Elt F) f L7) ∗ (∃ f, M.arg10.view.loc (c : Thread nD τ) ↦[M.arg10.view.set]{fullShare} M.arg10.view.writes (Elt F) f LS0)) -∗ K ⟨⟩))
          ⊢ wp frame (wpE (defs₀ (F := F)) Variants.none c none) E (cc0__sage_kernel M.i M.arg2 M.harg2 M.arg3 M.harg3 M.arg4 M.harg4 M.arg5 M.harg5 M.arg6 M.harg6 M.arg7 M.harg7 M.arg8 M.harg8 M.arg9 M.harg9 M.arg10 M.harg10) K } := by
  refine ⟨?_, ?_, fun E K => ?run⟩
  case run =>
    simp only [cc0__sage_kernel_eq_skeleton]; unfold cc0__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := M.harg2.eq_unread hf0; obtain rfl := M.harg3.eq_unread hf1; obtain rfl := M.harg4.eq_unread hf2; obtain rfl := M.harg5.eq_unread hf3; obtain rfl := M.harg6.eq_unread hf4; obtain rfl := M.harg7.eq_unread hf5; obtain rfl := M.harg8.eq_unread hf6; obtain rfl := M.harg10.eq_unread hfs0
    sl_exec (disch := first | exact hc0 | exact hc1)
    sl_step
    iapply Hk
    isplitl [H0]
    · iexists _; isplitr; · ipureintro; exact M.harg2.read_unread _
      iexact H0
    isplitl [H1]
    · iexists _; isplitr; · ipureintro; exact M.harg3.read_unread _
      iexact H1
    isplitl [H2]
    · iexists _; isplitr; · ipureintro; exact M.harg4.read_unread _
      iexact H2
    isplitl [H3]
    · iexists _; isplitr; · ipureintro; exact M.harg5.read_unread _
      iexact H3
    isplitl [H4]
    · iexists _; isplitr; · ipureintro; exact M.harg6.read_unread _
      iexact H4
    isplitl [H5]
    · iexists _; isplitr; · ipureintro; exact M.harg7.read_unread _
      iexact H5
    isplitl [H6]
    · iexists _; isplitr; · ipureintro; exact M.harg8.read_unread _
      iexact H6
    isplitl [H7]; · iexists _; iexact H7
    iexists _; iexact HS0

end Cert.KernelIdeal.Fr

end
-- ==== Proof.KI.Frame0.lean ====
import proofs.«404208_j53145925321203_2_alg».proof.Proof.KI.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (M : Mems0)

section
variable (hc0 : cond0_0 M.i) (hc1 : ¬cond0_1 M.i) (X : Blks0 F)

def out0_A_7 : Vec F S1024x128 .bf16 :=
  VO0_7.read (Elt F) (VO0_7.writes (Elt F) VO0_7.junk (kernelRun0_A c M hc0 hc1 X).1)

theorem scover0_A_0 (y : S1024x128.Idx) : ∃ pc ∈ (kernelRun0_A c M hc0 hc1 X).2.1, y ∈ pc.1.set :=
  View.cover_of_tiledL (kernelRun0_A c M hc0 hc1 X).2.1 S1024x128.size (by sl_kernel_rfl) y

def sout0_A_0 : Vec F S1024x128 .f32 :=
  VS0_0.read (Elt F) (VS0_0.writes (Elt F) VS0_0.junk (kernelRun0_A c M hc0 hc1 X).2.1)
end

section
variable (hc0 : ¬cond0_0 M.i) (hc1 : ¬cond0_1 M.i) (X : Blks0 F) (xs0 : Vec F S1024x128 .f32)

def out0_B_7 : Vec F S1024x128 .bf16 :=
  VO0_7.read (Elt F) (VO0_7.writes (Elt F) VO0_7.junk (kernelRun0_B c M hc0 hc1 X xs0).1)

theorem scover0_B_0 (y : S1024x128.Idx) : ∃ pc ∈ (kernelRun0_B c M hc0 hc1 X xs0).2.1, y ∈ pc.1.set :=
  View.cover_of_tiledL (kernelRun0_B c M hc0 hc1 X xs0).2.1 S1024x128.size (by sl_kernel_rfl) y

def sout0_B_0 : Vec F S1024x128 .f32 :=
  VS0_0.read (Elt F) (VS0_0.writes (Elt F) VS0_0.junk (kernelRun0_B c M hc0 hc1 X xs0).2.1)
end

section
variable (hc0 : ¬cond0_0 M.i) (hc1 : cond0_1 M.i) (X : Blks0 F) (xs0 : Vec F S1024x128 .f32)

theorem cover0_C_7 (y : S1024x128.Idx) : ∃ pc ∈ (kernelRun0_C c M hc0 hc1 X xs0).1, y ∈ pc.1.set :=
  View.cover_of_tiledL (kernelRun0_C c M hc0 hc1 X xs0).1 S1024x128.size (by sl_kernel_rfl) y

def out0_C_7 : Vec F S1024x128 .bf16 :=
  VO0_7.read (Elt F) (VO0_7.writes (Elt F) VO0_7.junk (kernelRun0_C c M hc0 hc1 X xs0).1)

theorem scover0_C_0 (y : S1024x128.Idx) : ∃ pc ∈ (kernelRun0_C c M hc0 hc1 X xs0).2.1, y ∈ pc.1.set :=
  View.cover_of_tiledL (kernelRun0_C c M hc0 hc1 X xs0).2.1 S1024x128.size (by sl_kernel_rfl) y

def sout0_C_0 : Vec F S1024x128 .f32 :=
  VS0_0.read (Elt F) (VS0_0.writes (Elt F) VS0_0.junk (kernelRun0_C c M hc0 hc1 X xs0).2.1)
end

end

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev blks0 (c : Dev nD) (t : Fin cfg0.N) : Blks0 F :=
  ⟨iblk0 V c 0 t, iblk0 V c 1 t, iblk0 V c 2 t, iblk0 V c 3 t, iblk0 V c 4 t, iblk0 V c 5 t, iblk0 V c 6 t⟩

section
variable (c : Dev nD) (t : Fin cfg0.N)

-- What a point of each case leaves: the output block it stores, and the accumulator.
def pt0A (h0 : t.val % 5 = 0) (h1 : ¬t.val % 5 = 4) : Vec F S1024x128 .bf16 × Vec F S1024x128 .f32 :=
  (out0_A_7 c (mems0 t) ((hcond0_0 t).mpr h0) (fun h => h1 ((hcond0_1 t).mp h)) (blks0 V c t), sout0_A_0 c (mems0 t) ((hcond0_0 t).mpr h0) (fun h => h1 ((hcond0_1 t).mp h)) (blks0 V c t))

def pt0B (h0 : ¬t.val % 5 = 0) (h1 : ¬t.val % 5 = 4) (xs : Vec F S1024x128 .f32) : Vec F S1024x128 .bf16 × Vec F S1024x128 .f32 :=
  (out0_B_7 c (mems0 t) (fun h => h0 ((hcond0_0 t).mp h)) (fun h => h1 ((hcond0_1 t).mp h)) (blks0 V c t) xs, sout0_B_0 c (mems0 t) (fun h => h0 ((hcond0_0 t).mp h)) (fun h => h1 ((hcond0_1 t).mp h)) (blks0 V c t) xs)

def pt0C (h0 : ¬t.val % 5 = 0) (h1 : t.val % 5 = 4) (xs : Vec F S1024x128 .f32) : Vec F S1024x128 .bf16 × Vec F S1024x128 .f32 :=
  (out0_C_7 c (mems0 t) (fun h => h0 ((hcond0_0 t).mp h)) ((hcond0_1 t).mpr h1) (blks0 V c t) xs, sout0_C_0 c (mems0 t) (fun h => h0 ((hcond0_0 t).mp h)) ((hcond0_1 t).mpr h1) (blks0 V c t) xs)

end

-- The case is chosen by the point's number modulo 5; cases B and C read what the point before left.
def outsAt0 (c : Dev nD) : (n : ℕ) → n < cfg0.N → Vec F S1024x128 .bf16 × Vec F S1024x128 .f32
  | 0, hn => pt0A V c ⟨0, hn⟩ (Nat.zero_mod _) (by show ¬0 % 5 = 4; decide)
  | n + 1, hn =>
    if h0 : (n + 1) % 5 = 0 then pt0A V c ⟨n + 1, hn⟩ h0 (by show ¬(n + 1) % 5 = 4; omega)
    else if h1 : (n + 1) % 5 = 4 then pt0C V c ⟨n + 1, hn⟩ h0 h1 (outsAt0 c n (Nat.lt_of_succ_lt hn)).2
    else pt0B V c ⟨n + 1, hn⟩ h0 h1 (outsAt0 c n (Nat.lt_of_succ_lt hn)).2

theorem outsAt0_A (c : Dev nD) (t : Fin cfg0.N) (h0 : t.val % 5 = 0) (h1 : ¬t.val % 5 = 4) :
    outsAt0 V c t.val t.isLt = pt0A V c t h0 h1 := by
  obtain ⟨n, hn⟩ := t
  cases n with
  | zero => rfl
  | succ n => exact (dif_pos h0).trans rfl

theorem outsAt0_B (c : Dev nD) (t : Fin cfg0.N) (h0 : ¬t.val % 5 = 0) (h1 : ¬t.val % 5 = 4) :
    outsAt0 V c t.val t.isLt = pt0B V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 5 = 0) (h1 : t.val % 5 = 4) :
    outsAt0 V c t.val t.isLt = pt0C V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

-- The region's invariant: before the first point what the launch hands over, afterwards the accumulator at what the point before left.
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

-- The region's proof data: after the body each input window holds its block, the output window what `outsAt0` says.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
-- The body's obligation at any point: the point's number modulo 5 says which case runs; the invariant hands the accumulator over and takes it back.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 5 = 0
  · have h1 : ¬t.val % 5 = 4 := by omega
    rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
    show _ ⊢ wp _ _ _ _ (fun _ => iprop(iprop(iprop(owns (c : Thread nD τ) scM0_0 fullShare ((outsAt0 V c t.val t.isLt).2) ∗ Rest0 (F := F) c) ∗ (∃ r, prngReg c r)) ∗ _))
    rw [outsAt0_A V c t h0 h1]
    unfold pt0A sout0_A_0; (try dsimp only)
    have hΦ : (dat0 V c).Φ t.castSucc ⊢ iprop(iprop((∃ d, owns (c : Thread nD τ) scM0_0 fullShare d) ∗ Rest0 (F := F) c) ∗ (∃ r, prngReg c r)) := by
      rw [PhiS0_castSucc V c t]
      by_cases hz : t.val = 0
      · rw [PhiS0_zero V c _ _ hz, PhiA0_eq]
      · rw [PhiS0_pos V c _ _ hz]
        iintro ⟨⟨HS0, HR⟩, Hg⟩
        iframe HR Hg
        iexists _; iexact HS0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := hΦ $$ HΦ
    icases HΦ' with ⟨⟨HS0, HR⟩, Hg⟩
    iapply ((kernelRun0_A c (mems0 t) ((hcond0_0 t).mpr h0) (fun h => h1 ((hcond0_1 t).mp h)) (blks0 V c t)).2.2 _ Set.univ _)
    iframe H0 H1 H2 H3 H4 H5 H6 H7 HS0
    iintro ⟨H0, H1, H2, H3, H4, H5, H6, H7, ⟨%es0, HS0⟩⟩
    iframe HR Hg Ho H0 H1 H2 H3 H4 H5 H6
    isplitl [HS0]
    · unfold owns; iexists _; isplitr
      swap; · iexact HS0
      ipureintro; exact View.read_writes_of_cover _ _ _ _ _ (scover0_A_0 c _ _ _ _)
    iexists _; iexact H7
  · have hz : t.val ≠ 0 := by omega
    rw [PhiS0_castSucc V c t, PhiS0_pos V c _ _ hz]
    by_cases h1 : t.val % 5 = 4
    · rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      show _ ⊢ wp _ _ _ _ (fun _ => iprop(iprop(iprop(owns (c : Thread nD τ) scM0_0 fullShare ((outsAt0 V c t.val t.isLt).2) ∗ Rest0 (F := F) c) ∗ (∃ r, prngReg c r)) ∗ _))
      rw [outsAt0_C V c t h0 h1]
      unfold pt0C out0_C_7 sout0_C_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (mems0 t) (fun h => h0 ((hcond0_0 t).mp h)) ((hcond0_1 t).mpr h1) (blks0 V c t) _).2.2 Set.univ _)
      iframe H0 H1 H2 H3 H4 H5 H6 HS0
      isplitl [H7]; · iexists _; iexact H7
      iintro ⟨H0, H1, H2, H3, H4, H5, H6, ⟨%e7, H7⟩, ⟨%es0, HS0⟩⟩
      iframe HR Hg Ho H0 H1 H2 H3 H4 H5 H6
      isplitl [HS0]
      · unfold owns; iexists _; isplitr
        swap; · iexact HS0
        ipureintro; exact View.read_writes_of_cover _ _ _ _ _ (scover0_C_0 c _ _ _ _ _)
      unfold owns; iexists _; isplitr
      swap; · iexact H7
      ipureintro; exact View.read_writes_of_cover _ _ _ _ _ (cover0_C_7 c _ _ _ _ _)
    · rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      show _ ⊢ wp _ _ _ _ (fun _ => iprop(iprop(iprop(owns (c : Thread nD τ) scM0_0 fullShare ((outsAt0 V c t.val t.isLt).2) ∗ Rest0 (F := F) c) ∗ (∃ r, prngReg c r)) ∗ _))
      rw [outsAt0_B V c t h0 h1]
      unfold pt0B sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (mems0 t) (fun h => h0 ((hcond0_0 t).mp h)) (fun h => h1 ((hcond0_1 t).mp h)) (blks0 V c t) _).2.2 _ Set.univ _)
      iframe H0 H1 H2 H3 H4 H5 H6 H7 HS0
      iintro ⟨H0, H1, H2, H3, H4, H5, H6, H7, ⟨%es0, HS0⟩⟩
      iframe HR Hg Ho H0 H1 H2 H3 H4 H5 H6
      isplitl [HS0]
      · unfold owns; iexists _; isplitr
        swap; · iexact HS0
        ipureintro; exact View.read_writes_of_cover _ _ _ _ _ (scover0_B_0 c _ _ _ _ _)
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

-- After the last point the accumulator's contents are forgotten.
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HR⟩, Hg⟩
  iframe HR Hg
  iexists _; iexact HS0

end Cert.KernelIdeal.Fr

end
-- ==== Proof.KI.Runs1.lean ====
import proofs.«404208_j53145925321203_2_alg».proof.Proof.Gen.KernelIdeal.Launch
import proofs.«404208_j53145925321203_2_alg».proof.Proof.Gen.KernelIdeal.Skeleton
import proofs.«404208_j53145925321203_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem liveAt1_5 : ∀ t : Fin cfg1.N, cfg1.idle 5 (grid1.coords t) = false := by decide +kernel

theorem liveAt1_6 : ∀ t : Fin cfg1.N, cfg1.idle 6 (grid1.coords t) = false := by decide +kernel

theorem idleAt1_7_A : ∀ t : Fin cfg1.N, cond1_0 (grid1.coords t) → ¬cond1_1 (grid1.coords t) → cfg1.idle 7 (grid1.coords t) = true := by decide +kernel

theorem noFlush1_7_A : ∀ t : Fin cfg1.N, cond1_0 (grid1.coords t) → ¬cond1_1 (grid1.coords t) → (cfg1.win 7).flush t = false := by decide +kernel

theorem idleAt1_7_B : ∀ t : Fin cfg1.N, ¬cond1_0 (grid1.coords t) → ¬cond1_1 (grid1.coords t) → cfg1.idle 7 (grid1.coords t) = true := by decide +kernel

theorem noFlush1_7_B : ∀ t : Fin cfg1.N, ¬cond1_0 (grid1.coords t) → ¬cond1_1 (grid1.coords t) → (cfg1.win 7).flush t = false := by decide +kernel

theorem liveAt1_7_C : ∀ t : Fin cfg1.N, ¬cond1_0 (grid1.coords t) → cond1_1 (grid1.coords t) → cfg1.idle 7 (grid1.coords t) = false := by decide +kernel

abbrev VO1_7 : View sig .tc .vmem S1024x128 .f32 := (Memref.whole cc1_stg7_0 : Memref sig .tc .vmem S1024x128 .f32).view

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)

abbrev scM1_0 : Memref sig .tc .vmem S1024x128 .f32 := Memref.whole cc1_scratch0

abbrev VS1_0 : View sig .tc .vmem S1024x128 .f32 := scM1_0.view

-- The body's arguments: the grid point, and a whole memref for each window and for the accumulator.
structure Mems1 where
  i : grid1.Coords
  arg2 : Memref sig .tc .vmem S1024x2048 .bf16
  harg2 : arg2.IsWhole
  arg3 : Memref sig .tc .vmem S2048x128 .bf16
  harg3 : arg3.IsWhole
  arg4 : Memref sig .tc .vmem S1024x128 .bf16
  harg4 : arg4.IsWhole
  arg5 : Memref sig .tc .vmem S128x128 .bf16
  harg5 : arg5.IsWhole
  arg6 : Memref sig .tc .vmem S128x128 .bf16
  harg6 : arg6.IsWhole
  arg7 : Memref sig .tc .vmem S1x128 .f32
  harg7 : arg7.IsWhole
  arg8 : Memref sig .tc .vmem S1024x1 .f32
  harg8 : arg8.IsWhole
  arg9 : Memref sig .tc .vmem S1024x128 .f32
  harg9 : arg9.IsWhole
  arg10 : Memref sig .tc .vmem S1024x128 .f32
  harg10 : arg10.IsWhole

-- The blocks of the seven input windows.
structure Blks1 (F : FTy → Type) where
  x0 : Vec F S1024x2048 .bf16
  x1 : Vec F S2048x128 .bf16
  x2 : Vec F S1024x128 .bf16
  x3 : Vec F S128x128 .bf16
  x4 : Vec F S128x128 .bf16
  x5 : Vec F S1x128 .f32
  x6 : Vec F S1024x1 .f32

abbrev mems1 (t : Fin cfg1.N) : Mems1 :=
  ⟨grid1.coords t, ms1_0 t, hs1_0 t, ms1_1 t, hs1_1 t, ms1_2 t, hs1_2 t, ms1_3 t, hs1_3 t, ms1_4 t, hs1_4 t, ms1_5 t, hs1_5 t, ms1_6 t, hs1_6 t, ms1_7 t, hs1_7 t, scM1_0, Memref.isWhole_whole _⟩

def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_scratch0), ((c : Thread nD τ).loc cc0_scratch0) ↦{fullShare} f))

-- The launch's invariant with the accumulator as a memref owned at some contents.
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA; rw [scopedRest1_eq]; unfold Rest1; simp only [scM1_0, owns_whole]
  refine BI.equiv_iff.mp ⟨?_, ?_⟩
  · change BIBase.Entails (PROP := sProp 𝕄) _ _
    iintro ⟨⟨H0, H1, H2, H3, H4, H5, H6, H7, H8, H9, H10, H11, H12, H13, HS⟩, Hr⟩
    iframe
  · change BIBase.Entails (PROP := sProp 𝕄) _ _
    iintro ⟨⟨HS, H0, H1, H2, H3, H4, H5, H6, H7, H8, H9, H10, H11, H12, H13⟩, Hr⟩
    iframe

end Cert.KernelIdeal.Fr

end
-- ==== Proof.KI.Run1A.lean ====
import proofs.«404208_j53145925321203_2_alg».proof.Proof.KI.Runs1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Case k = 0: the accumulator is reset to zero and takes the first block product.
set_option maxHeartbeats 1000000 in
noncomputable def kernelRun1_A (c : Dev nD) (M : Mems1) (hc0 : cond1_0 M.i) (hc1 : ¬cond1_1 M.i) (X : Blks1 F) :
    Σ' (L7 : List (View.Piece (Elt F) S1024x128 .f32)), { LS0 : List (View.Piece (Elt F) S1024x128 .f32) //
      ∀ (xi7 : Vec F S1024x128 .f32) (E : Set ℕ) (K : PUnit → sProp 𝕄),
        iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ owns (c : Thread nD τ) M.arg9 fullShare xi7 ∗ (∃ d, owns (c : Thread nD τ) M.arg10 fullShare d)
            ∗ (iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ owns (c : Thread nD τ) M.arg9 fullShare xi7 ∗ (∃ f, M.arg10.view.loc (c : Thread nD τ) ↦[M.arg10.view.set]{fullShare} M.arg10.view.writes (Elt F) f LS0)) -∗ K ⟨⟩))
          ⊢ wp frame (wpE (defs₀ (F := F)) Variants.none c none) E (cc1__sage_kernel M.i M.arg2 M.harg2 M.arg3 M.harg3 M.arg4 M.harg4 M.arg5 M.harg5 M.arg6 M.harg6 M.arg7 M.harg7 M.arg8 M.harg8 M.arg9 M.harg9 M.arg10 M.harg10) K } := by
  refine ⟨[], ?_, fun xi7 E K => ?run⟩
  case run =>
    simp only [cc1__sage_kernel_eq_skeleton]; unfold cc1__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := M.harg2.eq_unread hf0; obtain rfl := M.harg3.eq_unread hf1; obtain rfl := M.harg4.eq_unread hf2; obtain rfl := M.harg5.eq_unread hf3; obtain rfl := M.harg6.eq_unread hf4; obtain rfl := M.harg7.eq_unread hf5; obtain rfl := M.harg8.eq_unread hf6; obtain rfl := M.harg9.eq_unread hf7
    sl_exec (disch := first | exact hc0 | exact hc1)
    sl_step
    iapply Hk
    isplitl [H0]
    · iexists _; isplitr; · ipureintro; exact M.harg2.read_unread _
      iexact H0
    isplitl [H1]
    · iexists _; isplitr; · ipureintro; exact M.harg3.read_unread _
      iexact H1
    isplitl [H2]
    · iexists _; isplitr; · ipureintro; exact M.harg4.read_unread _
      iexact H2
    isplitl [H3]
    · iexists _; isplitr; · ipureintro; exact M.harg5.read_unread _
      iexact H3
    isplitl [H4]
    · iexists _; isplitr; · ipureintro; exact M.harg6.read_unread _
      iexact H4
    isplitl [H5]
    · iexists _; isplitr; · ipureintro; exact M.harg7.read_unread _
      iexact H5
    isplitl [H6]
    · iexists _; isplitr; · ipureintro; exact M.harg8.read_unread _
      iexact H6
    isplitl [H7]
    · iexists _; isplitr; · ipureintro; exact M.harg9.read_unread _
      iexact H7
    iexists _; iexact HS0

end Cert.KernelIdeal.Fr

end
-- ==== Proof.KI.Run1B.lean ====
import proofs.«404208_j53145925321203_2_alg».proof.Proof.KI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Case 0 < k < 4: the accumulator takes one more block product.
set_option maxHeartbeats 1000000 in
noncomputable def kernelRun1_B (c : Dev nD) (M : Mems1) (hc0 : ¬cond1_0 M.i) (hc1 : ¬cond1_1 M.i) (X : Blks1 F) (xs0 : Vec F S1024x128 .f32) :
    Σ' (L7 : List (View.Piece (Elt F) S1024x128 .f32)), { LS0 : List (View.Piece (Elt F) S1024x128 .f32) //
      ∀ (xi7 : Vec F S1024x128 .f32) (E : Set ℕ) (K : PUnit → sProp 𝕄),
        iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ owns (c : Thread nD τ) M.arg9 fullShare xi7 ∗ owns (c : Thread nD τ) M.arg10 fullShare xs0
            ∗ (iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ owns (c : Thread nD τ) M.arg9 fullShare xi7 ∗ (∃ f, M.arg10.view.loc (c : Thread nD τ) ↦[M.arg10.view.set]{fullShare} M.arg10.view.writes (Elt F) f LS0)) -∗ K ⟨⟩))
          ⊢ wp frame (wpE (defs₀ (F := F)) Variants.none c none) E (cc1__sage_kernel M.i M.arg2 M.harg2 M.arg3 M.harg3 M.arg4 M.harg4 M.arg5 M.harg5 M.arg6 M.harg6 M.arg7 M.harg7 M.arg8 M.harg8 M.arg9 M.harg9 M.arg10 M.harg10) K } := by
  refine ⟨[], ?_, fun xi7 E K => ?run⟩
  case run =>
    simp only [cc1__sage_kernel_eq_skeleton]; unfold cc1__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := M.harg2.eq_unread hf0; obtain rfl := M.harg3.eq_unread hf1; obtain rfl := M.harg4.eq_unread hf2; obtain rfl := M.harg5.eq_unread hf3; obtain rfl := M.harg6.eq_unread hf4; obtain rfl := M.harg7.eq_unread hf5; obtain rfl := M.harg8.eq_unread hf6; obtain rfl := M.harg9.eq_unread hf7; obtain rfl := M.harg10.eq_unread hfs0
    sl_exec (disch := first | exact hc0 | exact hc1)
    sl_step
    iapply Hk
    isplitl [H0]
    · iexists _; isplitr; · ipureintro; exact M.harg2.read_unread _
      iexact H0
    isplitl [H1]
    · iexists _; isplitr; · ipureintro; exact M.harg3.read_unread _
      iexact H1
    isplitl [H2]
    · iexists _; isplitr; · ipureintro; exact M.harg4.read_unread _
      iexact H2
    isplitl [H3]
    · iexists _; isplitr; · ipureintro; exact M.harg5.read_unread _
      iexact H3
    isplitl [H4]
    · iexists _; isplitr; · ipureintro; exact M.harg6.read_unread _
      iexact H4
    isplitl [H5]
    · iexists _; isplitr; · ipureintro; exact M.harg7.read_unread _
      iexact H5
    isplitl [H6]
    · iexists _; isplitr; · ipureintro; exact M.harg8.read_unread _
      iexact H6
    isplitl [H7]
    · iexists _; isplitr; · ipureintro; exact M.harg9.read_unread _
      iexact H7
    iexists _; iexact HS0

end Cert.KernelIdeal.Fr

end
-- ==== Proof.KI.Run1C.lean ====
import proofs.«404208_j53145925321203_2_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Case k = 4: the accumulator takes the last block product, and the output block is computed from it and stored.
set_option maxHeartbeats 1000000 in
noncomputable def kernelRun1_C (c : Dev nD) (M : Mems1) (hc0 : ¬cond1_0 M.i) (hc1 : cond1_1 M.i) (X : Blks1 F) (xs0 : Vec F S1024x128 .f32) :
    Σ' (L7 : List (View.Piece (Elt F) S1024x128 .f32)), { LS0 : List (View.Piece (Elt F) S1024x128 .f32) //
      ∀ (E : Set ℕ) (K : PUnit → sProp 𝕄),
        iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ (∃ d, owns (c : Thread nD τ) M.arg9 fullShare d) ∗ owns (c : Thread nD τ) M.arg10 fullShare xs0
            ∗ (iprop(owns (c : Thread nD τ) M.arg2 fullShare X.x0 ∗ owns (c : Thread nD τ) M.arg3 fullShare X.x1 ∗ owns (c : Thread nD τ) M.arg4 fullShare X.x2 ∗ owns (c : Thread nD τ) M.arg5 fullShare X.x3 ∗ owns (c : Thread nD τ) M.arg6 fullShare X.x4 ∗ owns (c : Thread nD τ) M.arg7 fullShare X.x5 ∗ owns (c : Thread nD τ) M.arg8 fullShare X.x6 ∗ (∃ f, M.arg9.view.loc (c : Thread nD τ) ↦[M.arg9.view.set]{fullShare} M.arg9.view.writes (Elt F) f L7) ∗ (∃ f, M.arg10.view.loc (c : Thread nD τ) ↦[M.arg10.view.set]{fullShare} M.arg10.view.writes (Elt F) f LS0)) -∗ K ⟨⟩))
          ⊢ wp frame (wpE (defs₀ (F := F)) Variants.none c none) E (cc1__sage_kernel M.i M.arg2 M.harg2 M.arg3 M.harg3 M.arg4 M.harg4 M.arg5 M.harg5 M.arg6 M.harg6 M.arg7 M.harg7 M.arg8 M.harg8 M.arg9 M.harg9 M.arg10 M.harg10) K } := by
  refine ⟨?_, ?_, fun E K => ?run⟩
  case run =>
    simp only [cc1__sage_kernel_eq_skeleton]; unfold cc1__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := M.harg2.eq_unread hf0; obtain rfl := M.harg3.eq_unread hf1; obtain rfl := M.harg4.eq_unread hf2; obtain rfl := M.harg5.eq_unread hf3; obtain rfl := M.harg6.eq_unread hf4; obtain rfl := M.harg7.eq_unread hf5; obtain rfl := M.harg8.eq_unread hf6; obtain rfl := M.harg10.eq_unread hfs0
    sl_exec (disch := first | exact hc0 | exact hc1)
    sl_step
    iapply Hk
    isplitl [H0]
    · iexists _; isplitr; · ipureintro; exact M.harg2.read_unread _
      iexact H0
    isplitl [H1]
    · iexists _; isplitr; · ipureintro; exact M.harg3.read_unread _
      iexact H1
    isplitl [H2]
    · iexists _; isplitr; · ipureintro; exact M.harg4.read_unread _
      iexact H2
    isplitl [H3]
    · iexists _; isplitr; · ipureintro; exact M.harg5.read_unread _
      iexact H3
    isplitl [H4]
    · iexists _; isplitr; · ipureintro; exact M.harg6.read_unread _
      iexact H4
    isplitl [H5]
    · iexists _; isplitr; · ipureintro; exact M.harg7.read_unread _
      iexact H5
    isplitl [H6]
    · iexists _; isplitr; · ipureintro; exact M.harg8.read_unread _
      iexact H6
    isplitl [H7]; · iexists _; iexact H7
    iexists _; iexact HS0

end Cert.KernelIdeal.Fr

end
-- ==== Proof.KI.Frame1.lean ====
import proofs.«404208_j53145925321203_2_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (M : Mems1)

section
variable (hc0 : cond1_0 M.i) (hc1 : ¬cond1_1 M.i) (X : Blks1 F)

def out1_A_7 : Vec F S1024x128 .f32 :=
  VO1_7.read (Elt F) (VO1_7.writes (Elt F) VO1_7.junk (kernelRun1_A c M hc0 hc1 X).1)

theorem scover1_A_0 (y : S1024x128.Idx) : ∃ pc ∈ (kernelRun1_A c M hc0 hc1 X).2.1, y ∈ pc.1.set :=
  View.cover_of_tiledL (kernelRun1_A c M hc0 hc1 X).2.1 S1024x128.size (by sl_kernel_rfl) y

def sout1_A_0 : Vec F S1024x128 .f32 :=
  VS1_0.read (Elt F) (VS1_0.writes (Elt F) VS1_0.junk (kernelRun1_A c M hc0 hc1 X).2.1)
end

section
variable (hc0 : ¬cond1_0 M.i) (hc1 : ¬cond1_1 M.i) (X : Blks1 F) (xs0 : Vec F S1024x128 .f32)

def out1_B_7 : Vec F S1024x128 .f32 :=
  VO1_7.read (Elt F) (VO1_7.writes (Elt F) VO1_7.junk (kernelRun1_B c M hc0 hc1 X xs0).1)

theorem scover1_B_0 (y : S1024x128.Idx) : ∃ pc ∈ (kernelRun1_B c M hc0 hc1 X xs0).2.1, y ∈ pc.1.set :=
  View.cover_of_tiledL (kernelRun1_B c M hc0 hc1 X xs0).2.1 S1024x128.size (by sl_kernel_rfl) y

def sout1_B_0 : Vec F S1024x128 .f32 :=
  VS1_0.read (Elt F) (VS1_0.writes (Elt F) VS1_0.junk (kernelRun1_B c M hc0 hc1 X xs0).2.1)
end

section
variable (hc0 : ¬cond1_0 M.i) (hc1 : cond1_1 M.i) (X : Blks1 F) (xs0 : Vec F S1024x128 .f32)

theorem cover1_C_7 (y : S1024x128.Idx) : ∃ pc ∈ (kernelRun1_C c M hc0 hc1 X xs0).1, y ∈ pc.1.set :=
  View.cover_of_tiledL (kernelRun1_C c M hc0 hc1 X xs0).1 S1024x128.size (by sl_kernel_rfl) y

def out1_C_7 : Vec F S1024x128 .f32 :=
  VO1_7.read (Elt F) (VO1_7.writes (Elt F) VO1_7.junk (kernelRun1_C c M hc0 hc1 X xs0).1)

theorem scover1_C_0 (y : S1024x128.Idx) : ∃ pc ∈ (kernelRun1_C c M hc0 hc1 X xs0).2.1, y ∈ pc.1.set :=
  View.cover_of_tiledL (kernelRun1_C c M hc0 hc1 X xs0).2.1 S1024x128.size (by sl_kernel_rfl) y

def sout1_C_0 : Vec F S1024x128 .f32 :=
  VS1_0.read (Elt F) (VS1_0.writes (Elt F) VS1_0.junk (kernelRun1_C c M hc0 hc1 X xs0).2.1)
end

end

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev blks1 (c : Dev nD) (t : Fin cfg1.N) : Blks1 F :=
  ⟨iblk1 V c 0 t, iblk1 V c 1 t, iblk1 V c 2 t, iblk1 V c 3 t, iblk1 V c 4 t, iblk1 V c 5 t, iblk1 V c 6 t⟩

section
variable (c : Dev nD) (t : Fin cfg1.N)

-- What a point of each case leaves: the output block it stores, and the accumulator.
def pt1A (h0 : t.val % 5 = 0) (h1 : ¬t.val % 5 = 4) : Vec F S1024x128 .f32 × Vec F S1024x128 .f32 :=
  (out1_A_7 c (mems1 t) ((hcond1_0 t).mpr h0) (fun h => h1 ((hcond1_1 t).mp h)) (blks1 V c t), sout1_A_0 c (mems1 t) ((hcond1_0 t).mpr h0) (fun h => h1 ((hcond1_1 t).mp h)) (blks1 V c t))

def pt1B (h0 : ¬t.val % 5 = 0) (h1 : ¬t.val % 5 = 4) (xs : Vec F S1024x128 .f32) : Vec F S1024x128 .f32 × Vec F S1024x128 .f32 :=
  (out1_B_7 c (mems1 t) (fun h => h0 ((hcond1_0 t).mp h)) (fun h => h1 ((hcond1_1 t).mp h)) (blks1 V c t) xs, sout1_B_0 c (mems1 t) (fun h => h0 ((hcond1_0 t).mp h)) (fun h => h1 ((hcond1_1 t).mp h)) (blks1 V c t) xs)

def pt1C (h0 : ¬t.val % 5 = 0) (h1 : t.val % 5 = 4) (xs : Vec F S1024x128 .f32) : Vec F S1024x128 .f32 × Vec F S1024x128 .f32 :=
  (out1_C_7 c (mems1 t) (fun h => h0 ((hcond1_0 t).mp h)) ((hcond1_1 t).mpr h1) (blks1 V c t) xs, sout1_C_0 c (mems1 t) (fun h => h0 ((hcond1_0 t).mp h)) ((hcond1_1 t).mpr h1) (blks1 V c t) xs)

end

-- The case is chosen by the point's number modulo 5; cases B and C read what the point before left.
def outsAt1 (c : Dev nD) : (n : ℕ) → n < cfg1.N → Vec F S1024x128 .f32 × Vec F S1024x128 .f32
  | 0, hn => pt1A V c ⟨0, hn⟩ (Nat.zero_mod _) (by show ¬0 % 5 = 4; decide)
  | n + 1, hn =>
    if h0 : (n + 1) % 5 = 0 then pt1A V c ⟨n + 1, hn⟩ h0 (by show ¬(n + 1) % 5 = 4; omega)
    else if h1 : (n + 1) % 5 = 4 then pt1C V c ⟨n + 1, hn⟩ h0 h1 (outsAt1 c n (Nat.lt_of_succ_lt hn)).2
    else pt1B V c ⟨n + 1, hn⟩ h0 h1 (outsAt1 c n (Nat.lt_of_succ_lt hn)).2

theorem outsAt1_A (c : Dev nD) (t : Fin cfg1.N) (h0 : t.val % 5 = 0) (h1 : ¬t.val % 5 = 4) :
    outsAt1 V c t.val t.isLt = pt1A V c t h0 h1 := by
  obtain ⟨n, hn⟩ := t
  cases n with
  | zero => rfl
  | succ n => exact (dif_pos h0).trans rfl

theorem outsAt1_B (c : Dev nD) (t : Fin cfg1.N) (h0 : ¬t.val % 5 = 0) (h1 : ¬t.val % 5 = 4) :
    outsAt1 V c t.val t.isLt = pt1B V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 5 = 0) (h1 : t.val % 5 = 4) :
    outsAt1 V c t.val t.isLt = pt1C V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

-- The region's invariant: before the first point what the launch hands over, afterwards the accumulator at what the point before left.
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

-- The region's proof data: after the body each input window holds its block, the output window what `outsAt1` says.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
-- The body's obligation at any point: the point's number modulo 5 says which case runs; the invariant hands the accumulator over and takes it back.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 5 = 0
  · have h1 : ¬t.val % 5 = 4 := by omega
    rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
    show _ ⊢ wp _ _ _ _ (fun _ => iprop(iprop(iprop(owns (c : Thread nD τ) scM1_0 fullShare ((outsAt1 V c t.val t.isLt).2) ∗ Rest1 (F := F) c) ∗ (∃ r, prngReg c r)) ∗ _))
    rw [outsAt1_A V c t h0 h1]
    unfold pt1A sout1_A_0; (try dsimp only)
    have hΦ : (dat1 V c).Φ t.castSucc ⊢ iprop(iprop((∃ d, owns (c : Thread nD τ) scM1_0 fullShare d) ∗ Rest1 (F := F) c) ∗ (∃ r, prngReg c r)) := by
      rw [PhiS1_castSucc V c t]
      by_cases hz : t.val = 0
      · rw [PhiS1_zero V c _ _ hz, PhiA1_eq]
      · rw [PhiS1_pos V c _ _ hz]
        iintro ⟨⟨HS0, HR⟩, Hg⟩
        iframe HR Hg
        iexists _; iexact HS0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := hΦ $$ HΦ
    icases HΦ' with ⟨⟨HS0, HR⟩, Hg⟩
    iapply ((kernelRun1_A c (mems1 t) ((hcond1_0 t).mpr h0) (fun h => h1 ((hcond1_1 t).mp h)) (blks1 V c t)).2.2 _ Set.univ _)
    iframe H0 H1 H2 H3 H4 H5 H6 H7 HS0
    iintro ⟨H0, H1, H2, H3, H4, H5, H6, H7, ⟨%es0, HS0⟩⟩
    iframe HR Hg Ho H0 H1 H2 H3 H4 H5 H6
    isplitl [HS0]
    · unfold owns; iexists _; isplitr
      swap; · iexact HS0
      ipureintro; exact View.read_writes_of_cover _ _ _ _ _ (scover1_A_0 c _ _ _ _)
    iexists _; iexact H7
  · have hz : t.val ≠ 0 := by omega
    rw [PhiS1_castSucc V c t, PhiS1_pos V c _ _ hz]
    by_cases h1 : t.val % 5 = 4
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      show _ ⊢ wp _ _ _ _ (fun _ => iprop(iprop(iprop(owns (c : Thread nD τ) scM1_0 fullShare ((outsAt1 V c t.val t.isLt).2) ∗ Rest1 (F := F) c) ∗ (∃ r, prngReg c r)) ∗ _))
      rw [outsAt1_C V c t h0 h1]
      unfold pt1C out1_C_7 sout1_C_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (mems1 t) (fun h => h0 ((hcond1_0 t).mp h)) ((hcond1_1 t).mpr h1) (blks1 V c t) _).2.2 Set.univ _)
      iframe H0 H1 H2 H3 H4 H5 H6 HS0
      isplitl [H7]; · iexists _; iexact H7
      iintro ⟨H0, H1, H2, H3, H4, H5, H6, ⟨%e7, H7⟩, ⟨%es0, HS0⟩⟩
      iframe HR Hg Ho H0 H1 H2 H3 H4 H5 H6
      isplitl [HS0]
      · unfold owns; iexists _; isplitr
        swap; · iexact HS0
        ipureintro; exact View.read_writes_of_cover _ _ _ _ _ (scover1_C_0 c _ _ _ _ _)
      unfold owns; iexists _; isplitr
      swap; · iexact H7
      ipureintro; exact View.read_writes_of_cover _ _ _ _ _ (cover1_C_7 c _ _ _ _ _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      show _ ⊢ wp _ _ _ _ (fun _ => iprop(iprop(iprop(owns (c : Thread nD τ) scM1_0 fullShare ((outsAt1 V c t.val t.isLt).2) ∗ Rest1 (F := F) c) ∗ (∃ r, prngReg c r)) ∗ _))
      rw [outsAt1_B V c t h0 h1]
      unfold pt1B sout1_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (mems1 t) (fun h => h0 ((hcond1_0 t).mp h)) (fun h => h1 ((hcond1_1 t).mp h)) (blks1 V c t) _).2.2 _ Set.univ _)
      iframe H0 H1 H2 H3 H4 H5 H6 H7 HS0
      iintro ⟨H0, H1, H2, H3, H4, H5, H6, H7, ⟨%es0, HS0⟩⟩
      iframe HR Hg Ho H0 H1 H2 H3 H4 H5 H6
      isplitl [HS0]
      · unfold owns; iexists _; isplitr
        swap; · iexact HS0
        ipureintro; exact View.read_writes_of_cover _ _ _ _ _ (scover1_B_0 c _ _ _ _ _)
      iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

-- After the last point the accumulator's contents are forgotten.
theorem hout1 (c : Dev nD) : (dat1 V c).Φ (Fin.last cfg1.N) ⊢ Pipeline.ΦA spec1 c := by
  have ht : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HR⟩, Hg⟩
  iframe HR Hg
  iexists _; iexact HS0

end Cert.KernelIdeal.Fr

end
-- ==== Proof.KI.Regs.lean ====
import proofs.«404208_j53145925321203_2_alg».proof.Proof.KI.RunCond
import proofs.«404208_j53145925321203_2_alg».proof.Proof.KI.Arrays0
import proofs.«404208_j53145925321203_2_alg».proof.Proof.KI.Arrays1
import proofs.«404208_j53145925321203_2_alg».proof.Proof.KI.Frame0
import proofs.«404208_j53145925321203_2_alg».proof.Proof.KI.Frame1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

theorem v33_ne_v39 : (main_v33 : Ref sig .tc) ≠ main_v39 := by decide

variable (m : (ℓ : Loc nD τ sig) → Buf (Elt F) ℓ) (ρ : Dev nD → PrngReg)

abbrev Vr3 : (c : Dev nD) → (b : Ref sig .tc) → Buf (Elt F) ((c : Thread nD τ).loc b) := fun c b => V3 m c b

def out33 (c : Dev nD) : Buf (Elt F) ((c : Thread nD τ).loc main_v33) := (dat0 (Vr3 m) c).arrAt 7 cfg0.N

def outsA : Outs (F := F) := fun _ r c => Function.update (fun r' => (Classical.arbitrary (Buf (Elt F) ((c : Thread nD τ).loc r')))) main_v33 (out33 m c) r

abbrev Vr5 : (c : Dev nD) → (b : Ref sig .tc) → Buf (Elt F) ((c : Thread nD τ).loc b) := fun c b => V5 m (outsA m) c b

def out39 (c : Dev nD) : Buf (Elt F) ((c : Thread nD τ).loc main_v39) := (dat1 (Vr5 m) c).arrAt 7 cfg1.N

def outsB : Outs (F := F) := fun _ r c =>
  Function.update (Function.update (fun r' => (Classical.arbitrary (Buf (Elt F) ((c : Thread nD τ).loc r')))) main_v33 (out33 m c)) main_v39 (out39 m c) r

theorem outsB_33 (J : ℕ) (c : Dev nD) : outsB m J main_v33 c = out33 m c := by
  unfold outsB; rw [Function.update_of_ne v33_ne_v39, Function.update_self]
theorem outsB_39 (J : ℕ) (c : Dev nD) : outsB m J main_v39 c = out39 m c := by
  unfold outsB; rw [Function.update_self]
theorem outsA_33 (J : ℕ) (c : Dev nD) : outsA m J main_v33 c = out33 m c := by
  unfold outsA; rw [Function.update_self]

theorem V5_outsB (c : Dev nD) : V5 m (outsB m) c = V5 m (outsA m) c := by
  unfold V5 V4; rw [outsB_33, outsA_33]

-- Each region's proof data at its entry contents: region 1 enters with region 0's output array at what its pipeline left.
def pdats : (p : Fin 2) → (c : Dev nD) → Dat τ (Elt F) Unit ℕ (UR sig nD τ) ℕ (cfgs p) c
  | ⟨0, _⟩ => fun c => dat0 (Vr3 m) c
  | ⟨1, _⟩ => fun c => dat1 (Vr5 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option maxHeartbeats 4000000 in

theorem hF0 (c : Dev nD) (w : Fin cfg0.W) : (pdats m 0 c).arrAt w cfg0.N = V4 m (outsB m) c (Pipeline.arrRef spec0 w) := by
  match w with
  | ⟨0, _⟩ => exact ((dat0 (Vr3 m) c).arrAt_in 0 rfl _).trans ((V4_of m (outsB m) c main_v25 (by decide)).symm)
  | ⟨1, _⟩ => exact ((dat0 (Vr3 m) c).arrAt_in 1 rfl _).trans ((V4_of m (outsB m) c main_v27 (by decide)).symm)
  | ⟨2, _⟩ => exact ((dat0 (Vr3 m) c).arrAt_in 2 rfl _).trans ((V4_of m (outsB m) c main_v27 (by decide)).symm)
  | ⟨3, _⟩ => exact ((dat0 (Vr3 m) c).arrAt_in 3 rfl _).trans ((V4_of m (outsB m) c main_v29 (by decide)).symm)
  | ⟨4, _⟩ => exact ((dat0 (Vr3 m) c).arrAt_in 4 rfl _).trans ((V4_of m (outsB m) c main_v31 (by decide)).symm)
  | ⟨5, _⟩ => exact ((dat0 (Vr3 m) c).arrAt_in 5 rfl _).trans ((V4_of m (outsB m) c main_v32 (by decide)).symm)
  | ⟨6, _⟩ => exact ((dat0 (Vr3 m) c).arrAt_in 6 rfl _).trans ((V4_of m (outsB m) c main_v8 (by decide)).symm)
  | ⟨7, _⟩ =>
    show (dat0 (Vr3 m) c).arrAt 7 cfg0.N = V4 m (outsB m) c main_v33
    unfold V4; rw [Function.update_self, outsB_33]; rfl

theorem hrest0 (c : Dev nD) : ∀ b, b ∉ Finset.univ.image (Pipeline.arrRef spec0) → V4 m (outsB m) c b = Vr3 m c b :=
  fun b hb => V4_of m (outsB m) c b (fun h => hb (by rw [List.mem_singleton.mp h]; exact Finset.mem_image.mpr ⟨7, Finset.mem_univ _, rfl⟩))

set_option maxHeartbeats 4000000 in
theorem hF1 (c : Dev nD) (w : Fin cfg1.W) : (pdats m 1 c).arrAt w cfg1.N = V6 m (outsB m) c (Pipeline.arrRef spec1 w) := by
  match w with
  | ⟨0, _⟩ => exact ((dat1 (Vr5 m) c).arrAt_in 0 rfl _).trans ((congrFun (V5_outsB m c) _).symm.trans (V6_of m (outsB m) c main_v25 (by decide)).symm)
  | ⟨1, _⟩ => exact ((dat1 (Vr5 m) c).arrAt_in 1 rfl _).trans ((congrFun (V5_outsB m c) _).symm.trans (V6_of m (outsB m) c main_v33 (by decide)).symm)
  | ⟨2, _⟩ => exact ((dat1 (Vr5 m) c).arrAt_in 2 rfl _).trans ((congrFun (V5_outsB m c) _).symm.trans (V6_of m (outsB m) c main_v33 (by decide)).symm)
  | ⟨3, _⟩ => exact ((dat1 (Vr5 m) c).arrAt_in 3 rfl _).trans ((congrFun (V5_outsB m c) _).symm.trans (V6_of m (outsB m) c main_v35 (by decide)).symm)
  | ⟨4, _⟩ => exact ((dat1 (Vr5 m) c).arrAt_in 4 rfl _).trans ((congrFun (V5_outsB m c) _).symm.trans (V6_of m (outsB m) c main_v37 (by decide)).symm)
  | ⟨5, _⟩ => exact ((dat1 (Vr5 m) c).arrAt_in 5 rfl _).trans ((congrFun (V5_outsB m c) _).symm.trans (V6_of m (outsB m) c main_v38 (by decide)).symm)
  | ⟨6, _⟩ => exact ((dat1 (Vr5 m) c).arrAt_in 6 rfl _).trans ((congrFun (V5_outsB m c) _).symm.trans (V6_of m (outsB m) c main_v8 (by decide)).symm)
  | ⟨7, _⟩ =>
    show (dat1 (Vr5 m) c).arrAt 7 cfg1.N = V6 m (outsB m) c main_v39
    unfold V6; rw [Function.update_self, outsB_39]; rfl

theorem hrest1 (c : Dev nD) : ∀ b, b ∉ Finset.univ.image (Pipeline.arrRef spec1) → V6 m (outsB m) c b = Vr5 m c b :=
  fun b hb => (V6_of m (outsB m) c b (fun h => hb (by rw [List.mem_singleton.mp h]; exact Finset.mem_image.mpr ⟨7, Finset.mem_univ _, rfl⟩))).trans (congrFun (V5_outsB m c) _)

set_option backward.isDefEq.respectTransparency.types false in

-- A region as a segment of the run: its arrays are taken out of the buffers that outlive a kernel call and put back, the output array replaced by what the region leaves.
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outsB m) c) ∗ R c)
  X c := iprop(∃ r, prngReg c r)
  Y c := iprop(∃ r, prngReg c r)
  Z c := Pipeline.unscopedRest (Ix := Unit) (Name := ℕ) (U := UR sig nD τ) (Lvl := ℕ) spec0 c (Vr3 m c)
  hentry c := by
    rw [Pipeline.ownSems0_none]
    have hsplit : (unscopedBufs c (Vr3 m c) : sProp 𝕄)
        ⊢ iprop((pdats m 0 c).arrays ((pdats m 0 c).arrAt · 0) ∗ Pipeline.unscopedRest spec0 c (Vr3 m c)) := by
      rw [Pipeline.unscopedBufs_split₀ cfgs 0 winFacts₀0.arr_unscoped c (Vr3 m c)]
      exact sep_mono (arrays0_iff (pdats m 0 c) rfl rfl (fun w h1 h2 => by
        match w, h1, h2 with
        | ⟨0, _⟩, _, _ => rfl
        | ⟨1, _⟩, h1, _ => exact absurd rfl h1
        | ⟨2, _⟩, _, h2 => exact absurd rfl h2
        | ⟨3, _⟩, _, _ => rfl
        | ⟨4, _⟩, _, _ => rfl
        | ⟨5, _⟩, _, _ => rfl
        | ⟨6, _⟩, _, _ => rfl
        | ⟨7, _⟩, _, _ => rfl) _ (Vr3 m c) (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (hin0 (Vr3 m) c)
    unfold Pipeline.ΦA
    iintro ⟨Hp, -, Hr⟩
    isplitl [Hr]; · iexact Hr
    iexact Hp
  hout c := by
    rw [Pipeline.ownSems0_none]
    refine BIBase.Entails.trans (hout0 (Vr3 m) c) ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vr3 m c))
        ⊢ (unscopedBufs c (fun b => V4 m (outsB m) c b) : sProp 𝕄) := by
      rw [Pipeline.unscopedBufs_split₀ cfgs 0 winFacts₀0.arr_unscoped c (fun b => V4 m (outsB m) c b)]
      refine sep_mono (arrays0_iff (pdats m 0 c) rfl rfl (fun w h1 h2 => by
        match w, h1, h2 with
        | ⟨0, _⟩, _, _ => rfl
        | ⟨1, _⟩, h1, _ => exact absurd rfl h1
        | ⟨2, _⟩, _, h2 => exact absurd rfl h2
        | ⟨3, _⟩, _, _ => rfl
        | ⟨4, _⟩, _, _ => rfl
        | ⟨5, _⟩, _, _ => rfl
        | ⟨6, _⟩, _, _ => rfl
        | ⟨7, _⟩, _, _ => rfl) _ (fun b => V4 m (outsB m) c b) (hF0 m c)).1 (Entails.of_eq ?_)
      unfold Pipeline.unscopedRest
      exact bigSep_congr fun b hb => by beta_reduce; rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr5 m) c).loose
  hwaits := Pipeline.hwaits_of_owed_zero _ _ _ _ L lv 1 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outsB m) c) ∗ R c)
  X c := iprop(∃ r, prngReg c r)
  Y c := iprop(∃ r, prngReg c r)
  Z c := Pipeline.unscopedRest (Ix := Unit) (Name := ℕ) (U := UR sig nD τ) (Lvl := ℕ) spec1 c (Vr5 m c)
  hentry c := by
    rw [Pipeline.ownSems0_none, V5_outsB m c]
    have hsplit : (unscopedBufs c (Vr5 m c) : sProp 𝕄)
        ⊢ iprop((pdats m 1 c).arrays ((pdats m 1 c).arrAt · 0) ∗ Pipeline.unscopedRest spec1 c (Vr5 m c)) := by
      rw [Pipeline.unscopedBufs_split₀ cfgs 1 winFacts₀1.arr_unscoped c (Vr5 m c)]
      exact sep_mono (arrays1_iff (pdats m 1 c) rfl rfl (fun w h1 h2 => by
        match w, h1, h2 with
        | ⟨0, _⟩, _, _ => rfl
        | ⟨1, _⟩, h1, _ => exact absurd rfl h1
        | ⟨2, _⟩, _, h2 => exact absurd rfl h2
        | ⟨3, _⟩, _, _ => rfl
        | ⟨4, _⟩, _, _ => rfl
        | ⟨5, _⟩, _, _ => rfl
        | ⟨6, _⟩, _, _ => rfl
        | ⟨7, _⟩, _, _ => rfl) _ (Vr5 m c) (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec1 c) ?_ (hin1 (Vr5 m) c)
    unfold Pipeline.ΦA
    iintro ⟨Hp, -, Hr⟩
    isplitl [Hr]; · iexact Hr
    iexact Hp
  hout c := by
    rw [Pipeline.ownSems0_none]
    refine BIBase.Entails.trans (hout1 (Vr5 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vr5 m c))
        ⊢ (unscopedBufs c (fun b => V6 m (outsB m) c b) : sProp 𝕄) := by
      rw [Pipeline.unscopedBufs_split₀ cfgs 1 winFacts₀1.arr_unscoped c (fun b => V6 m (outsB m) c b)]
      refine sep_mono (arrays1_iff (pdats m 1 c) rfl rfl (fun w h1 h2 => by
        match w, h1, h2 with
        | ⟨0, _⟩, _, _ => rfl
        | ⟨1, _⟩, h1, _ => exact absurd rfl h1
        | ⟨2, _⟩, _, h2 => exact absurd rfl h2
        | ⟨3, _⟩, _, _ => rfl
        | ⟨4, _⟩, _, _ => rfl
        | ⟨5, _⟩, _, _ => rfl
        | ⟨6, _⟩, _, _ => rfl
        | ⟨7, _⟩, _, _ => rfl) _ (fun b => V6 m (outsB m) c b) (hF1 m c)).1 (Entails.of_eq ?_)
      unfold Pipeline.unscopedRest
      exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- The run: host stretches and the two regions in turn; every buffer that outlives a kernel call ends at the chain's last valuation.
theorem run_main : θ_run defs (onTc (τ := τ) (main (F := F))) ⟨m, fun _ => 0, ρ⟩ (fun r => ∀ c : Dev nD,
      ∀ b ∈ Pipeline.ucRefs τ sig, r.2.mem (((c : Thread nD τ)).1, b) = V7 m (outsB m) c b) :=
  run_cond m emb₁ () 𝒱₀ L lv (fun _ _ => rfl) ρ (outsB m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)

end Cert.KernelIdeal.Fr

end
-- ==== Proof.SameText.lean ====
import proofs.«404208_j53145925321203_2_alg».proof.Proof.Gen.Kernel
import proofs.«404208_j53145925321203_2_alg».proof.Proof.Gen.KernelIdeal

set_option maxRecDepth 16384

noncomputable section

namespace Cert.Proof

open Idealize.ShloMosaic

variable {F : FTy → Type} [FloatOps F]

-- The word-level program and the idealized program are one text: label by label the kernels' bodies are the same term,
set_option maxHeartbeats 1000000 in
theorem defs₀_eq : Cert.Kernel.defs₀ (F := F) = Cert.KernelIdeal.defs₀ (F := F) := by
  unfold Cert.Kernel.defs₀ Cert.KernelIdeal.defs₀
  congr 1
  funext l a
  match l, a with
  | 0, (t, s) => rfl
  | 1, (t, s) => rfl

theorem defs_eq : Cert.Kernel.defs (F := F) = Cert.KernelIdeal.defs (F := F) :=
  congrArg (Pipeline.defs Cert.KernelIdeal.pcfgs) defs₀_eq

-- and so is @main, operation by operation.
set_option maxHeartbeats 1000000 in
theorem main_eq : Cert.Kernel.main (F := F) = Cert.KernelIdeal.main (F := F) := rfl

end Cert.Proof

end
-- ==== Proof.KI.Value0a.lean ====
import proofs.«404208_j53145925321203_2_alg».proof.Proof.KI.Frame0
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem off00 : (![0, 0] : Fin 2 → Nat) = fun _ => 0 := funext fun a => by fin_cases a <;> rfl

section
variable (c : Dev nD) (M : Mems0)

section
variable (hc0 : cond0_0 M.i) (hc1 : ¬cond0_1 M.i) (X : Blks0 F)
-- At k = 0 the sum is taken over the zeros just stored, read back.
theorem acc_first : sout0_A_0 c M hc0 hc1 X = k0_pay2 (k0_pay1 (F := F)) X.x0 X.x1 := by
  unfold sout0_A_0
  rw [View.read_writes_eq_canon _ _ _ (scover0_A_0 c M hc0 hc1 X)]
  unfold kernelRun0_A
  dsimp only
  sl_unfold_words
  rw [View.canon_cons_unit_zero (S := S1024x128) off00, View.readCov_unit_zero (S := S1024x128) _ off00]
  simp only [View.readAt_eq_ld, M.harg2.read_unread, M.harg3.read_unread, M.harg10.read_unread, View.readCov_unit_zero (S := S1024x128) _ off00, View.ld_unit_zero (S := S1024x128) off00, View.ld_unit_zero (S := S1024x2048) off00, View.ld_unit_zero (S := S2048x128) off00]
end

section
variable (hc0 : ¬cond0_0 M.i) (hc1 : ¬cond0_1 M.i) (X : Blks0 F) (xs0 : Vec F S1024x128 .f32)
theorem acc_middle : sout0_B_0 c M hc0 hc1 X xs0 = k0_pay2 xs0 X.x0 X.x1 := by
  unfold sout0_B_0
  rw [View.read_writes_eq_canon _ _ _ (scover0_B_0 c M hc0 hc1 X xs0)]
  unfold kernelRun0_B
  dsimp only
  sl_unfold_words
  rw [View.canon_unit_zero off00]
  simp only [View.readAt_eq_ld, M.harg2.read_unread, M.harg3.read_unread, M.harg10.read_unread, View.ld_unit_zero (S := S1024x128) off00, View.ld_unit_zero (S := S1024x2048) off00, View.ld_unit_zero (S := S2048x128) off00]
end

section
variable (hc0 : ¬cond0_0 M.i) (hc1 : cond0_1 M.i) (X : Blks0 F) (xs0 : Vec F S1024x128 .f32)
theorem acc_last : sout0_C_0 c M hc0 hc1 X xs0 = k0_pay2 xs0 X.x0 X.x1 := by
  unfold sout0_C_0
  rw [View.read_writes_eq_canon _ _ _ (scover0_C_0 c M hc0 hc1 X xs0)]
  unfold kernelRun0_C
  dsimp only
  sl_unfold_words
  rw [View.canon_unit_zero off00]
  simp only [View.readAt_eq_ld, M.harg2.read_unread, M.harg3.read_unread, M.harg10.read_unread, View.ld_unit_zero (S := S1024x128) off00, View.ld_unit_zero (S := S1024x2048) off00, View.ld_unit_zero (S := S2048x128) off00]

-- The output block is computed from the accumulator as just stored.
theorem out_last : out0_C_7 c M hc0 hc1 X xs0 = k0_pay3 (k0_pay2 xs0 X.x0 X.x1) X.x6 X.x2 X.x3 X.x4 X.x5 := by
  unfold out0_C_7
  rw [View.read_writes_eq_canon _ _ _ (cover0_C_7 c M hc0 hc1 X xs0)]
  unfold kernelRun0_C
  dsimp only
  sl_unfold_words
  rw [View.canon_unit_zero off00]
  simp only [View.readAt_eq_ld, M.harg2.read_unread, M.harg3.read_unread, M.harg4.read_unread, M.harg5.read_unread, M.harg6.read_unread, M.harg7.read_unread, M.harg8.read_unread, M.harg10.read_unread, View.readCov_unit_zero (S := S1024x128) _ off00, View.ld_unit_zero (S := S1024x128) off00, View.ld_unit_zero (S := S1024x2048) off00, View.ld_unit_zero (S := S2048x128) off00, View.ld_unit_zero (S := S128x128) off00, View.ld_unit_zero (S := S1x128) off00, View.ld_unit_zero (S := S1024x1) off00]
end

end

section
variable (V : (c : Dev nD) → (b : Ref sig .tc) → Buf (Elt F) ((c : Thread nD τ).loc b)) (c : Dev nD) (t : Fin cfg0.N)

theorem acc_first_at (h0 : t.val % 5 = 0) (h1 : ¬t.val % 5 = 4) :
    (pt0A V c t h0 h1).2 = k0_pay2 (k0_pay1 (F := F)) (iblk0 V c 0 t) (iblk0 V c 1 t) := by
  dsimp only [pt0A]
  exact acc_first c (mems0 t) _ _ (blks0 V c t)

theorem acc_middle_at (h0 : ¬t.val % 5 = 0) (h1 : ¬t.val % 5 = 4) (xs : Vec F S1024x128 .f32) :
    (pt0B V c t h0 h1 xs).2 = k0_pay2 xs (iblk0 V c 0 t) (iblk0 V c 1 t) := by
  dsimp only [pt0B]
  exact acc_middle c (mems0 t) _ _ (blks0 V c t) xs

theorem acc_last_at (h0 : ¬t.val % 5 = 0) (h1 : t.val % 5 = 4) (xs : Vec F S1024x128 .f32) :
    (pt0C V c t h0 h1 xs).2 = k0_pay2 xs (iblk0 V c 0 t) (iblk0 V c 1 t) := by
  dsimp only [pt0C]
  exact acc_last c (mems0 t) _ _ (blks0 V c t) xs

theorem out_last_at (h0 : ¬t.val % 5 = 0) (h1 : t.val % 5 = 4) (xs : Vec F S1024x128 .f32) :
    (pt0C V c t h0 h1 xs).1 = k0_pay3 (k0_pay2 xs (iblk0 V c 0 t) (iblk0 V c 1 t)) (iblk0 V c 6 t) (iblk0 V c 2 t) (iblk0 V c 3 t) (iblk0 V c 4 t) (iblk0 V c 5 t) := by
  dsimp only [pt0C]
  exact out_last c (mems0 t) _ _ (blks0 V c t) xs
end

end Cert.KernelIdeal.Fr

end
-- ==== Proof.KI.Value0b.lean ====
import proofs.«404208_j53145925321203_2_alg».proof.Proof.KI.Frame0
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

-- Point t = 5·i + k reads block (i, k) of the counts, row block k and row block i of the features, row block i of the reciprocal degrees; the weights and the bias whole.
theorem blockIdx0 : ∀ t : Fin cfg0.N,
    win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = t.val / 5 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 5 ∧ win0_6.index t (1 : Fin 2) = 0
    ∧ win0_7.index t (0 : Fin 2) = t.val / 5 ∧ win0_7.index t (1 : Fin 2) = 0 :=
  (by decide +kernel : ∀ t : Fin grid0.N, _)

theorem countBlock_apply (c : Dev nD) (t : Fin cfg0.N) (x : S1024x2048.Idx) (k : S10240x10240.Idx)
    (hk0 : (k 0).val = 1024 * (t.val / 5) + (x 0).val) (hk1 : (k 1).val = 2048 * (t.val % 5) + (x 1).val) :
    (iblk0 V c 0 t : Vec F S1024x2048 .bf16) x = (V c main_v25 : S10240x10240.Idx → Elt F .bf16) k := by
  obtain ⟨e00, e01, e10, e11, e20, e21, e30, e31, e40, e41, e50, e51, e60, e61, e70, e71⟩ := blockIdx0 t
  unfold iblk0
  rw [View.read_apply]
  show V c main_v25 _ = V c main_v25 _
  congr 1
  funext a
  apply Fin.ext
  match a with
  | ⟨0, _⟩ => show win0_0.index t (0 : Fin 2) * 1024 + 1 * (x 0).val = (k 0).val; rw [e00, hk0]; omega
  | ⟨1, _⟩ => show win0_0.index t (1 : Fin 2) * 2048 + 1 * (x 1).val = (k 1).val; rw [e01, hk1]; omega

theorem featBlock_apply (c : Dev nD) (t : Fin cfg0.N) (x : S2048x128.Idx) (k : S10240x128.Idx)
    (hk0 : (k 0).val = 2048 * (t.val % 5) + (x 0).val) (hk1 : (k 1).val = 0 + (x 1).val) :
    (iblk0 V c 1 t : Vec F S2048x128 .bf16) x = (V c main_v27 : S10240x128.Idx → Elt F .bf16) k := by
  obtain ⟨e00, e01, e10, e11, e20, e21, e30, e31, e40, e41, e50, e51, e60, e61, e70, e71⟩ := blockIdx0 t
  unfold iblk0
  rw [View.read_apply]
  show V c main_v27 _ = V c main_v27 _
  congr 1
  funext a
  apply Fin.ext
  match a with
  | ⟨0, _⟩ => show win0_1.index t (0 : Fin 2) * 2048 + 1 * (x 0).val = (k 0).val; rw [e10, hk0]; omega
  | ⟨1, _⟩ => show win0_1.index t (1 : Fin 2) * 128 + 1 * (x 1).val = (k 1).val; rw [e11, hk1]; omega

theorem selfBlock_apply (c : Dev nD) (t : Fin cfg0.N) (x : S1024x128.Idx) (k : S10240x128.Idx)
    (hk0 : (k 0).val = 1024 * (t.val / 5) + (x 0).val) (hk1 : (k 1).val = 0 + (x 1).val) :
    (iblk0 V c 2 t : Vec F S1024x128 .bf16) x = (V c main_v27 : S10240x128.Idx → Elt F .bf16) k := by
  obtain ⟨e00, e01, e10, e11, e20, e21, e30, e31, e40, e41, e50, e51, e60, e61, e70, e71⟩ := blockIdx0 t
  unfold iblk0
  rw [View.read_apply]
  show V c main_v27 _ = V c main_v27 _
  congr 1
  funext a
  apply Fin.ext
  match a with
  | ⟨0, _⟩ => show win0_2.index t (0 : Fin 2) * 1024 + 1 * (x 0).val = (k 0).val; rw [e20, hk0]; omega
  | ⟨1, _⟩ => show win0_2.index t (1 : Fin 2) * 128 + 1 * (x 1).val = (k 1).val; rw [e21, hk1]; omega

theorem selfWeights_apply (c : Dev nD) (t : Fin cfg0.N) (x : S128x128.Idx) (k : S128x128.Idx)
    (hk0 : (k 0).val = 0 + (x 0).val) (hk1 : (k 1).val = 0 + (x 1).val) :
    (iblk0 V c 3 t : Vec F S128x128 .bf16) x = (V c main_v29 : S128x128.Idx → Elt F .bf16) k := by
  obtain ⟨e00, e01, e10, e11, e20, e21, e30, e31, e40, e41, e50, e51, e60, e61, e70, e71⟩ := blockIdx0 t
  unfold iblk0
  rw [View.read_apply]
  show V c main_v29 _ = V c main_v29 _
  congr 1
  funext a
  apply Fin.ext
  match a with
  | ⟨0, _⟩ => show win0_3.index t (0 : Fin 2) * 128 + 1 * (x 0).val = (k 0).val; rw [e30, hk0]; omega
  | ⟨1, _⟩ => show win0_3.index t (1 : Fin 2) * 128 + 1 * (x 1).val = (k 1).val; rw [e31, hk1]; omega

theorem nbrWeights_apply (c : Dev nD) (t : Fin cfg0.N) (x : S128x128.Idx) (k : S128x128.Idx)
    (hk0 : (k 0).val = 0 + (x 0).val) (hk1 : (k 1).val = 0 + (x 1).val) :
    (iblk0 V c 4 t : Vec F S128x128 .bf16) x = (V c main_v31 : S128x128.Idx → Elt F .bf16) k := by
  obtain ⟨e00, e01, e10, e11, e20, e21, e30, e31, e40, e41, e50, e51, e60, e61, e70, e71⟩ := blockIdx0 t
  unfold iblk0
  rw [View.read_apply]
  show V c main_v31 _ = V c main_v31 _
  congr 1
  funext a
  apply Fin.ext
  match a with
  | ⟨0, _⟩ => show win0_4.index t (0 : Fin 2) * 128 + 1 * (x 0).val = (k 0).val; rw [e40, hk0]; omega
  | ⟨1, _⟩ => show win0_4.index t (1 : Fin 2) * 128 + 1 * (x 1).val = (k 1).val; rw [e41, hk1]; omega

theorem biasBlock_apply (c : Dev nD) (t : Fin cfg0.N) (x : S1x128.Idx) (k : S1x128.Idx)
    (hk0 : (k 0).val = 0 + (x 0).val) (hk1 : (k 1).val = 0 + (x 1).val) :
    (iblk0 V c 5 t : Vec F S1x128 .f32) x = (V c main_v32 : S1x128.Idx → Elt F .f32) k := by
  obtain ⟨e00, e01, e10, e11, e20, e21, e30, e31, e40, e41, e50, e51, e60, e61, e70, e71⟩ := blockIdx0 t
  unfold iblk0
  rw [View.read_apply]
  show V c main_v32 _ = V c main_v32 _
  congr 1
  funext a
  apply Fin.ext
  match a with
  | ⟨0, _⟩ => show win0_5.index t (0 : Fin 2) * 1 + 1 * (x 0).val = (k 0).val; rw [e50, hk0]; omega
  | ⟨1, _⟩ => show win0_5.index t (1 : Fin 2) * 128 + 1 * (x 1).val = (k 1).val; rw [e51, hk1]; omega

theorem invBlock_apply (c : Dev nD) (t : Fin cfg0.N) (x : S1024x1.Idx) (k : S10240x1.Idx)
    (hk0 : (k 0).val = 1024 * (t.val / 5) + (x 0).val) (hk1 : (k 1).val = 0 + (x 1).val) :
    (iblk0 V c 6 t : Vec F S1024x1 .f32) x = (V c main_v8 : S10240x1.Idx → Elt F .f32) k := by
  obtain ⟨e00, e01, e10, e11, e20, e21, e30, e31, e40, e41, e50, e51, e60, e61, e70, e71⟩ := blockIdx0 t
  unfold iblk0
  rw [View.read_apply]
  show V c main_v8 _ = V c main_v8 _
  congr 1
  funext a
  apply Fin.ext
  match a with
  | ⟨0, _⟩ => show win0_6.index t (0 : Fin 2) * 1024 + 1 * (x 0).val = (k 0).val; rw [e60, hk0]; omega
  | ⟨1, _⟩ => show win0_6.index t (1 : Fin 2) * 1 + 1 * (x 1).val = (k 1).val; rw [e61, hk1]; omega

end Cert.KernelIdeal.Fr

end
-- ==== Proof.Payload.lean ====
import proofs.«404208_j53145925321203_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_counts_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_counts_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_counts_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_counts_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

-- The block product into a zero accumulator, read at an index, is a sum over the contracted axis.
theorem matmul_counts_apply (x : FVec Ideal S1024x2048 .bf16) (y : FVec Ideal S2048x128 .bf16) (r : Fin 1024) (q : Fin 128) :
    matmul (F := Ideal) dot_S1024x2048_S2048x128_S1024x128_1_0_0_1_n_n none x y (constant (F := Ideal) S1024x128 .f32 0x00000000#32) (ix2 r q)
      = ∑ k : Fin 2048, x (ix2 r k) * y (ix2 k q) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r q) ((contrEquiv1 dot_S1024x2048_S2048x128_S1024x128_1_0_0_1_n_n 2048 rfl rfl).symm k) = ix2 r k := funext fun a => Fin.ext (by
    match a with
    | ⟨0, _⟩ => exact lhs_counts_0 _ _
    | ⟨1, _⟩ => exact (lhs_counts_1 _ _).trans hk)
  have er : dot_S1024x2048_S2048x128_S1024x128_1_0_0_1_n_n.rhsIdx (ix2 r q) ((contrEquiv1 dot_S1024x2048_S2048x128_S1024x128_1_0_0_1_n_n 2048 rfl rfl).symm k) = ix2 k q := funext fun a => Fin.ext (by
    match a with
    | ⟨0, _⟩ => exact (rhs_counts_0 _ _).trans hk
    | ⟨1, _⟩ => exact rhs_counts_1 _ _)
  rw [el, er]

theorem lhs_weights_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_weights_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_weights_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_weights_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem matmul_weights_apply (x : FVec Ideal S1024x128 .bf16) (y : FVec Ideal S128x128 .bf16) (r : Fin 1024) (p : Fin 128) :
    matmul (F := Ideal) dot_S1024x128_S128x128_S1024x128_1_0_0_1_n_n none x y (constant (F := Ideal) S1024x128 .f32 0x00000000#32) (ix2 r p)
      = ∑ f : Fin 128, x (ix2 r f) * y (ix2 f p) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r p) ((contrEquiv1 dot_S1024x128_S128x128_S1024x128_1_0_0_1_n_n 128 rfl rfl).symm k) = ix2 r k := funext fun a => Fin.ext (by
    match a with
    | ⟨0, _⟩ => exact lhs_weights_0 _ _
    | ⟨1, _⟩ => exact (lhs_weights_1 _ _).trans hk)
  have er : dot_S1024x128_S128x128_S1024x128_1_0_0_1_n_n.rhsIdx (ix2 r p) ((contrEquiv1 dot_S1024x128_S128x128_S1024x128_1_0_0_1_n_n 128 rfl rfl).symm k) = ix2 k p := funext fun a => Fin.ext (by
    match a with
    | ⟨0, _⟩ => exact (rhs_weights_0 _ _).trans hk
    | ⟨1, _⟩ => exact rhs_weights_1 _ _)
  rw [el, er]

theorem pay1_apply (r : Fin 1024) (q : Fin 128) : k0_pay1 (F := Ideal) (ix2 r q) = 0 := by
  unfold k0_pay1
  simp only [shapeCast_self, broadcast_apply]
  exact Ideal.ofBits_zero_f32

theorem pay2_apply (xs : Vec Ideal S1024x128 .f32) (a : Vec Ideal S1024x2048 .bf16) (h : Vec Ideal S2048x128 .bf16)
    (r : Fin 1024) (q : Fin 128) :
    k0_pay2 (F := Ideal) xs a h (ix2 r q) = xs (ix2 r q) + ∑ s : Fin 2048, a (ix2 r s) * h (ix2 s q) := by
  unfold k0_pay2
  simp only [shapeCast_self, addf_apply]
  rw [matmul_counts_apply]

-- The stored output entry: max (self term + (accumulator × reciprocal degree) · neighbour weights + bias, 0).
theorem pay3_apply (s : Vec Ideal S1024x128 .f32) (inv : Vec Ideal S1024x1 .f32) (hs : Vec Ideal S1024x128 .bf16)
    (ws wn : Vec Ideal S128x128 .bf16) (b : Vec Ideal S1x128 .f32) (r : Fin 1024) (p : Fin 128) :
    k0_pay3 (F := Ideal) s inv hs ws wn b (ix2 r p)
      = max ((∑ f : Fin 128, hs (ix2 r f) * ws (ix2 f p)) + (∑ f : Fin 128, (s (ix2 r f) * inv (ix2 r 0)) * wn (ix2 f p))
          + b (ix2 0 p)) 0 := by
  unfold k0_pay3
  simp only [shapeCast_self, truncf_apply, maximumf_apply, addf_apply, broadcast_apply]
  rw [matmul_weights_apply, matmul_weights_apply, broadcastTo_1b_ab_apply]
  simp only [truncf_apply, mulf_apply, broadcastTo_a1_ab_apply]
  rw [show (Scalar.ofBits (F := Ideal) .f32 0x00000000#32 : EReal) = 0 from Ideal.ofBits_zero_f32]

namespace R1

theorem pay1_apply (r : Fin 1024) (q : Fin 128) : k1_pay1 (F := Ideal) (ix2 r q) = 0 := by
  unfold k1_pay1
  simp only [shapeCast_self, broadcast_apply]
  exact Ideal.ofBits_zero_f32

theorem pay2_apply (xs : Vec Ideal S1024x128 .f32) (a : Vec Ideal S1024x2048 .bf16) (h : Vec Ideal S2048x128 .bf16)
    (r : Fin 1024) (q : Fin 128) :
    k1_pay2 (F := Ideal) xs a h (ix2 r q) = xs (ix2 r q) + ∑ s : Fin 2048, a (ix2 r s) * h (ix2 s q) := by
  unfold k1_pay2
  simp only [shapeCast_self, addf_apply]
  rw [matmul_counts_apply]

theorem pay3_apply (s : Vec Ideal S1024x128 .f32) (inv : Vec Ideal S1024x1 .f32) (hs : Vec Ideal S1024x128 .bf16)
    (ws wn : Vec Ideal S128x128 .bf16) (b : Vec Ideal S1x128 .f32) (r : Fin 1024) (p : Fin 128) :
    k1_pay3 (F := Ideal) s inv hs ws wn b (ix2 r p)
      = max ((∑ f : Fin 128, hs (ix2 r f) * ws (ix2 f p)) + (∑ f : Fin 128, (s (ix2 r f) * inv (ix2 r 0)) * wn (ix2 f p))
          + b (ix2 0 p)) 0 := by
  unfold k1_pay3
  simp only [shapeCast_self, maximumf_apply, addf_apply, broadcast_apply]
  rw [matmul_weights_apply, matmul_weights_apply, broadcastTo_1b_ab_apply]
  simp only [truncf_apply, mulf_apply, broadcastTo_a1_ab_apply]
  rw [show (Scalar.ofBits (F := Ideal) .f32 0x00000000#32 : EReal) = 0 from Ideal.ofBits_zero_f32]

end R1

end Cert.KernelIdeal.Payload
-- ==== Proof.Spec.lean ====
import Idealize.ShloMosaic.PureOps.Ideal
import Idealize.ShloMosaic.Lib.ValueIdx

noncomputable section

open scoped BigOperators

namespace Sage

open Idealize.ShloMosaic

variable (sidx didx : Fin 640000 → Fin 10000)

-- The number of edges into node `r`.
def deg (r : Fin 10000) : EReal := ∑ _e ∈ Finset.univ.filter (fun e => didx e = r), (1 : EReal)

-- Column `k` of the sum, over the edges into node `r`, of the source node's features.
def agg (h : Fin 10000 → Fin 128 → EReal) (r : Fin 10000) (k : Fin 128) : EReal :=
  ∑ e ∈ Finset.univ.filter (fun e => didx e = r), h (sidx e) k

-- One round: `max (h · Wsᵀ + (agg / max deg 1) · Wnᵀ + b, 0)`.
def layer (h : Fin 10000 → Fin 128 → EReal) (Ws Wn : Fin 128 → Fin 128 → EReal) (b : Fin 128 → EReal) :
    Fin 10000 → Fin 128 → EReal := fun r p =>
  max ((∑ k, h r k * Ws p k) + (∑ k, Ideal.div (agg sidx didx h r k) (max (deg didx r) 1) * Wn p k) + b p) 0

def net (x : Fin 10000 → Fin 128 → EReal) (W1s W1n : Fin 128 → Fin 128 → EReal) (b1 : Fin 128 → EReal)
    (W2s W2n : Fin 128 → Fin 128 → EReal) (b2 : Fin 128 → EReal) : Fin 10000 → Fin 128 → EReal :=
  layer sidx didx (layer sidx didx x W1s W1n b1) W2s W2n b2

-- The number of edges from node number `s` into node number `r`.
def cnt (r s : ℕ) : EReal :=
  ∑ _e ∈ Finset.univ.filter (fun e => (didx e).val = r ∧ (sidx e).val = s), (1 : EReal)

def degN (r : ℕ) : EReal := ∑ _e ∈ Finset.univ.filter (fun e => (didx e).val = r), (1 : EReal)

def invdeg (r : ℕ) : EReal := Ideal.div 1 (max (degN didx r) 1)

-- The first `n` blocks of 2048 columns of row `r` of `A` against the matching rows of `H`.
def acc (A : ℕ → ℕ → EReal) (H : ℕ → Fin 128 → EReal) (r : ℕ) (k : Fin 128) : ℕ → EReal
  | 0 => 0
  | n + 1 => acc A H r k n + ∑ s : Fin 2048, A r (2048 * n + s.val) * H (2048 * n + s.val) k

-- The same round from the counts: the quotient by the degree is a product with its reciprocal.
def klayer (A : ℕ → ℕ → EReal) (H : ℕ → Fin 128 → EReal) (WsT WnT : Fin 128 → Fin 128 → EReal) (b : Fin 128 → EReal)
    (inv : ℕ → EReal) (r : ℕ) (p : Fin 128) : EReal :=
  max ((∑ k, H r k * WsT k p) + (∑ k, (acc A H r k 5 * inv r) * WnT k p) + b p) 0

-- An array of words, each a node number when read signed, as a function to nodes.
def rowOf (v : IVec ⟨1, ![640000]⟩ 32) (h : ∀ i, 0 ≤ (v i).toInt ∧ (v i).toInt < 10000) : Fin 640000 → Fin 10000 :=
  fun e => ⟨(v (ValueIdx.ix1 e)).toInt.toNat, by have := h (ValueIdx.ix1 e); omega⟩

theorem rowOf_val (v : IVec ⟨1, ![640000]⟩ 32) (h : ∀ i, 0 ≤ (v i).toInt ∧ (v i).toInt < 10000) (e : Fin 640000) :
    ((rowOf v h e).val : Int) = (v (ValueIdx.ix1 e)).toInt := by
  have := h (ValueIdx.ix1 e)
  show (((v (ValueIdx.ix1 e)).toInt.toNat : Nat) : Int) = _
  omega

end Sage

end
-- ==== Proof.SpecExt.lean ====
import proofs.«404208_j53145925321203_2_alg».proof.Proof.Spec

noncomputable section

namespace Sage

open Idealize.ShloMosaic Idealize.ShloMosaic.ValueIdx

-- An array as a function of row and column numbers: its entry inside the bounds, zero outside.
def ext2 {n m : Nat} (f : (⟨2, ![n, m]⟩ : Shape).Idx → EReal) : ℕ → ℕ → EReal :=
  fun r s => if h : r < n ∧ s < m then f (ix2 ⟨r, h.1⟩ ⟨s, h.2⟩) else 0

def extRow {n : Nat} (f : (⟨2, ![n, 128]⟩ : Shape).Idx → EReal) : ℕ → Fin 128 → EReal :=
  fun r k => if h : r < n then f (ix2 ⟨r, h⟩ k) else 0

def extCol {n : Nat} (f : (⟨2, ![n, 1]⟩ : Shape).Idx → EReal) : ℕ → EReal :=
  fun r => if h : r < n then f (ix2 ⟨r, h⟩ 0) else 0

theorem ext2_of_lt {n m : Nat} (f : (⟨2, ![n, m]⟩ : Shape).Idx → EReal) (r s : ℕ) (hr : r < n) (hs : s < m) :
    ext2 f r s = f (ix2 ⟨r, hr⟩ ⟨s, hs⟩) := dif_pos ⟨hr, hs⟩

theorem extRow_of_lt {n : Nat} (f : (⟨2, ![n, 128]⟩ : Shape).Idx → EReal) (r : ℕ) (k : Fin 128) (hr : r < n) :
    extRow f r k = f (ix2 ⟨r, hr⟩ k) := dif_pos hr

theorem extCol_of_lt {n : Nat} (f : (⟨2, ![n, 1]⟩ : Shape).Idx → EReal) (r : ℕ) (hr : r < n) :
    extCol f r = f (ix2 ⟨r, hr⟩ 0) := dif_pos hr

end Sage

end
-- ==== Proof.KI.Value0c.lean ====
import proofs.«404208_j53145925321203_2_alg».proof.Proof.KI.Value0a
import proofs.«404208_j53145925321203_2_alg».proof.Proof.KI.Value0b
import proofs.«404208_j53145925321203_2_alg».proof.Proof.Payload
import proofs.«404208_j53145925321203_2_alg».proof.Proof.SpecExt

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

-- One more block product: the first `n` products plus the `n`-th 2048 columns of row `R` against the matching rows.
theorem acc_step (xs : Vec Ideal S1024x128 .f32) (a : Vec Ideal S1024x2048 .bf16) (h : Vec Ideal S2048x128 .bf16)
    (A : ℕ → ℕ → EReal) (H : ℕ → Fin 128 → EReal) (R n : ℕ) (r : Fin 1024) (q : Fin 128)
    (hxs : xs (ix2 r q) = Sage.acc A H R q n)
    (ha : ∀ s : Fin 2048, a (ix2 r s) = A R (2048 * n + s.val))
    (hh : ∀ s : Fin 2048, h (ix2 s q) = H (2048 * n + s.val) q) :
    k0_pay2 (F := Ideal) xs a h (ix2 r q) = Sage.acc A H R q (n + 1) := by
  rw [Payload.pay2_apply, hxs]
  show _ = Sage.acc A H R q n + ∑ s : Fin 2048, A R (2048 * n + s.val) * H (2048 * n + s.val) q
  congr 1
  exact Finset.sum_congr rfl fun s _ => by rw [ha, hh]

-- The output block is the round's formula at row `R` once every block it reads is known entry by entry.
theorem out_step (s : Vec Ideal S1024x128 .f32) (inv : Vec Ideal S1024x1 .f32) (hs : Vec Ideal S1024x128 .bf16)
    (ws wn : Vec Ideal S128x128 .bf16) (b : Vec Ideal S1x128 .f32)
    (A : ℕ → ℕ → EReal) (H : ℕ → Fin 128 → EReal) (WsT WnT : Fin 128 → Fin 128 → EReal) (bb : Fin 128 → EReal)
    (iv : ℕ → EReal) (R : ℕ) (r : Fin 1024) (p : Fin 128)
    (hs_eq : ∀ f : Fin 128, hs (ix2 r f) = H R f) (hws : ∀ f : Fin 128, ws (ix2 f p) = WsT f p)
    (hwn : ∀ f : Fin 128, wn (ix2 f p) = WnT f p) (hb : b (ix2 0 p) = bb p) (hinv : inv (ix2 r 0) = iv R)
    (hacc : ∀ f : Fin 128, s (ix2 r f) = Sage.acc A H R f 5) :
    k0_pay3 (F := Ideal) s inv hs ws wn b (ix2 r p) = Sage.klayer A H WsT WnT bb iv R p := by
  rw [Payload.pay3_apply]
  unfold Sage.klayer
  simp only [hs_eq, hws, hwn, hb, hinv, hacc]

variable (V : (c : Dev nD) → (b : Ref sig .tc) → Buf (Elt Ideal) ((c : Thread nD τ).loc b))

abbrev counts (c : Dev nD) : S10240x10240.Idx → EReal := V c main_v25
abbrev feats (c : Dev nD) : S10240x128.Idx → EReal := V c main_v27
abbrev invDeg (c : Dev nD) : S10240x1.Idx → EReal := V c main_v8

-- After point `n = 5·i + k` the accumulator holds at (r, q) the first `k + 1` block products of row `1024·i + r`.
theorem acc_at (c : Dev nD) : ∀ (n : ℕ) (hn : n < cfg0.N) (r : Fin 1024) (q : Fin 128),
    ((outsAt0 V c n hn).2 : Vec Ideal S1024x128 .f32) (ix2 r q)
      = Sage.acc (Sage.ext2 (counts V c)) (Sage.extRow (feats V c)) (1024 * (n / 5) + r.val) q (n % 5 + 1) := by
  intro n
  induction n using Nat.strong_induction_on with
  | _ n ih =>
    intro hn r q
    have hN : n < 50 := lt_of_lt_of_eq hn (show cfg0.N = 50 from N_0)
    have hr : 1024 * (n / 5) + r.val < 10240 := by have := r.isLt; omega
    have hs : ∀ s : Fin 2048, 2048 * (n % 5) + s.val < 10240 := fun s => by have := s.isLt; omega
    have ha : ∀ s : Fin 2048, (iblk0 V c 0 ⟨n, hn⟩ : Vec Ideal S1024x2048 .bf16) (ix2 r s)
        = Sage.ext2 (counts V c) (1024 * (n / 5) + r.val) (2048 * (n % 5) + s.val) := fun s =>
      (countBlock_apply V c ⟨n, hn⟩ (ix2 r s) (ix2 ⟨_, hr⟩ ⟨_, hs s⟩) rfl rfl).trans (Sage.ext2_of_lt _ _ _ hr (hs s)).symm
    have hh : ∀ s : Fin 2048, (iblk0 V c 1 ⟨n, hn⟩ : Vec Ideal S2048x128 .bf16) (ix2 s q)
        = Sage.extRow (feats V c) (2048 * (n % 5) + s.val) q := fun s =>
      (featBlock_apply V c ⟨n, hn⟩ (ix2 s q) (ix2 ⟨_, hs s⟩ q) rfl (Nat.zero_add _).symm).trans (Sage.extRow_of_lt _ _ _ (hs s)).symm
    have step := fun (xs : Vec Ideal S1024x128 .f32) hxs => acc_step xs (iblk0 V c 0 ⟨n, hn⟩) (iblk0 V c 1 ⟨n, hn⟩) (Sage.ext2 (counts V c))
      (Sage.extRow (feats V c)) (1024 * (n / 5) + r.val) (n % 5) r q hxs ha hh
    by_cases h0 : n % 5 = 0
    · have h1 : ¬n % 5 = 4 := by omega
      rw [outsAt0_A V c ⟨n, hn⟩ h0 h1, acc_first_at V c ⟨n, hn⟩ h0 h1]
      exact step _ (by rw [h0]; exact Payload.pay1_apply r q)
    · have hprev := ih (n - 1) (by omega) (Nat.lt_of_le_of_lt (Nat.sub_le _ _) hn) r q
      rw [show (n - 1) / 5 = n / 5 from by omega, show (n - 1) % 5 + 1 = n % 5 from by omega] at hprev
      by_cases h1 : n % 5 = 4
      · rw [outsAt0_C V c ⟨n, hn⟩ h0 h1, acc_last_at]
        exact step _ hprev
      · rw [outsAt0_B V c ⟨n, hn⟩ h0 h1, acc_middle_at]
        exact step _ hprev

abbrev selfW (c : Dev nD) : S128x128.Idx → EReal := V c main_v29
abbrev nbrW (c : Dev nD) : S128x128.Idx → EReal := V c main_v31
abbrev biasRow (c : Dev nD) : S1x128.Idx → EReal := V c main_v32

abbrev layerOut (c : Dev nD) : S10240x128.Idx → EReal := fun j =>
  Sage.klayer (Sage.ext2 (counts V c)) (Sage.extRow (feats V c)) (fun k p => selfW V c (ix2 k p))
    (fun k p => nbrW V c (ix2 k p)) (fun p => biasRow V c (ix2 0 p)) (Sage.extCol (invDeg V c)) (j 0).val (j 1)

theorem mem_outBlock (t : Fin cfg0.N) (i : S10240x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v33).slice (win0_7.rect t)).set ↔ _
  rw [View.set_slice_whole, Rect.mem_set_unit]
  exact Iff.rfl

-- What a point with k = 4 writes back is its block of the round's formula: the accumulator then holds all five products.
theorem flushed0_eq (c : Dev nD) (t : Fin cfg0.N) (hf : (cfg0.win 7).flush t = true) :
    (dat0 V c).flushed 7 t = ((cfg0.win 7).blk t).view.read (Elt Ideal) (layerOut V c) := by
  have h1 : t.val % 5 = 4 := (flush0_7 t).mp hf
  have h0 : ¬t.val % 5 = 0 := by omega
  have hN : t.val < 50 := lt_of_lt_of_eq t.isLt (show cfg0.N = 50 from N_0)
  obtain ⟨e00, e01, e10, e11, e20, e21, e30, e31, e40, e41, e50, e51, e60, e61, e70, e71⟩ := blockIdx0 t
  show (cfg0.win 7).cut (grid0.coords t) ((dat0 V c).after 7 t) = _
  rw [after0_7, outsAt0_C V c t h0 h1, out_last_at]
  funext y
  obtain ⟨r, p, rfl⟩ : ∃ (r : Fin 1024) (p : Fin 128), y = ix2 r p := ⟨y 0, y 1, eq_ix2 y⟩
  have hR : 1024 * (t.val / 5) + r.val < 10240 := by have := r.isLt; omega
  have hemb : ((cfg0.win 7).blk t).view.emb (ix2 r p) = (ix2 ⟨1024 * (t.val / 5) + r.val, hR⟩ p : S10240x128.Idx) := by
    funext a; apply Fin.ext
    match a with
    | ⟨0, _⟩ => show win0_7.index t (0 : Fin 2) * 1024 + 1 * r.val = 1024 * (t.val / 5) + r.val; rw [e70]; omega
    | ⟨1, _⟩ => show win0_7.index t (1 : Fin 2) * 128 + 1 * p.val = p.val; rw [e71]; omega
  rw [View.read_apply, hemb]
  have hacc : ∀ f : Fin 128, k0_pay2 (F := Ideal) (outsAt0 V c (t.val - 1) (Nat.lt_of_le_of_lt (Nat.sub_le _ _) t.isLt)).2 (iblk0 V c 0 t) (iblk0 V c 1 t) (ix2 r f)
      = Sage.acc (Sage.ext2 (counts V c)) (Sage.extRow (feats V c)) (1024 * (t.val / 5) + r.val) f 5 := fun f => by
    have h := acc_at V c t.val t.isLt r f
    rw [outsAt0_C V c t h0 h1, acc_last_at, h1] at h
    exact h
  exact out_step (k0_pay2 (F := Ideal) (outsAt0 V c (t.val - 1) (Nat.lt_of_le_of_lt (Nat.sub_le _ _) t.isLt)).2 (iblk0 V c 0 t) (iblk0 V c 1 t)) (iblk0 V c 6 t) (iblk0 V c 2 t) (iblk0 V c 3 t) (iblk0 V c 4 t) (iblk0 V c 5 t)
    (Sage.ext2 (counts V c)) (Sage.extRow (feats V c)) (fun k p => selfW V c (ix2 k p)) (fun k p => nbrW V c (ix2 k p)) (fun p => biasRow V c (ix2 0 p)) (Sage.extCol (invDeg V c))
    (1024 * (t.val / 5) + r.val) r p
    (fun f => (selfBlock_apply V c t (ix2 r f) (ix2 ⟨_, hR⟩ f) rfl (Nat.zero_add _).symm).trans (Sage.extRow_of_lt _ _ _ hR).symm)
    (fun f => selfWeights_apply V c t (ix2 f p) (ix2 f p) (Nat.zero_add _).symm (Nat.zero_add _).symm)
    (fun f => nbrWeights_apply V c t (ix2 f p) (ix2 f p) (Nat.zero_add _).symm (Nat.zero_add _).symm)
    (biasBlock_apply V c t (ix2 0 p) (ix2 0 p) (Nat.zero_add _).symm (Nat.zero_add _).symm)
    ((invBlock_apply V c t (ix2 r 0) (ix2 ⟨_, hR⟩ 0) rfl (Nat.zero_add _).symm).trans (Sage.extCol_of_lt _ _ hR).symm)
    hacc

-- The ten written blocks tile the output array: row `R` is written by the last point of its row block.
theorem arrAt0_eq (c : Dev nD) : (dat0 V c).arrAt 7 cfg0.N = layerOut V c :=
  (dat0 V c).arrAt_eq_of_cover 7 (layerOut V c) (fun t hf => flushed0_eq V c t hf) fun i => by
    have hi0 : (i 0).val < 10240 := (i 0).isLt
    have hi1 : (i 1).val < 128 := (i 1).isLt
    have hN : cfg0.N = 50 := N_0
    have ht : 5 * ((i 0).val / 1024) + 4 < cfg0.N := by rw [hN]; omega
    refine ⟨⟨5 * ((i 0).val / 1024) + 4, ht⟩, (flush0_7 _).mpr (by dsimp only; omega), ?_⟩
    obtain ⟨e00, e01, e10, e11, e20, e21, e30, e31, e40, e41, e50, e51, e60, e61, e70, e71⟩ := blockIdx0 ⟨5 * ((i 0).val / 1024) + 4, ht⟩
    dsimp only at e70 e71
    rw [mem_outBlock]
    intro a
    match a with
    | ⟨0, _⟩ =>
      show win0_7.index ⟨5 * ((i 0).val / 1024) + 4, ht⟩ (0 : Fin 2) * 1024 ≤ (i 0).val ∧ (i 0).val < win0_7.index ⟨5 * ((i 0).val / 1024) + 4, ht⟩ (0 : Fin 2) * 1024 + 1024
      rw [e70]; omega
    | ⟨1, _⟩ =>
      show win0_7.index ⟨5 * ((i 0).val / 1024) + 4, ht⟩ (1 : Fin 2) * 128 ≤ (i 1).val ∧ (i 1).val < win0_7.index ⟨5 * ((i 0).val / 1024) + 4, ht⟩ (1 : Fin 2) * 128 + 128
      rw [e71]; omega

theorem arrAt0_apply (c : Dev nD) (R : Fin 10240) (p : Fin 128) :
    ((dat0 (F := Ideal) V c).arrAt 7 cfg0.N : S10240x128.Idx → EReal) (ix2 R p)
      = Sage.klayer (Sage.ext2 (V c main_v25 : S10240x10240.Idx → EReal)) (Sage.extRow (V c main_v27 : S10240x128.Idx → EReal))
          (fun k p => (V c main_v29 : S128x128.Idx → EReal) (ix2 k p)) (fun k p => (V c main_v31 : S128x128.Idx → EReal) (ix2 k p))
          (fun p => (V c main_v32 : S1x128.Idx → EReal) (ix2 0 p)) (Sage.extCol (V c main_v8 : S10240x1.Idx → EReal)) R.val p :=
  congrFun (arrAt0_eq V c) (ix2 R p)

end Cert.KernelIdeal.Fr

end
-- ==== Proof.KI.Value1a.lean ====
import proofs.«404208_j53145925321203_2_alg».proof.Proof.KI.Frame1
import Idealize.ShloMosaic.Lib.Pipeline.Value
import Idealize.ShloMosaic.Lib.Tactic

set_option maxRecDepth 16384

noncomputable section

namespace Cert.KernelIdeal.Fr.R1

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem off00 : (![0, 0] : Fin 2 → Nat) = fun _ => 0 := funext fun a => by fin_cases a <;> rfl

section
variable (c : Dev nD) (M : Mems1)

section
variable (hc0 : cond1_0 M.i) (hc1 : ¬cond1_1 M.i) (X : Blks1 F)
-- At k = 0 the sum is taken over the zeros just stored, read back.
theorem acc_first : sout1_A_0 c M hc0 hc1 X = k1_pay2 (k1_pay1 (F := F)) X.x0 X.x1 := by
  unfold sout1_A_0
  rw [View.read_writes_eq_canon _ _ _ (scover1_A_0 c M hc0 hc1 X)]
  unfold kernelRun1_A
  dsimp only
  sl_unfold_words
  rw [View.canon_cons_unit_zero (S := S1024x128) off00, View.readCov_unit_zero (S := S1024x128) _ off00]
  simp only [View.readAt_eq_ld, M.harg2.read_unread, M.harg3.read_unread, M.harg10.read_unread, View.readCov_unit_zero (S := S1024x128) _ off00, View.ld_unit_zero (S := S1024x128) off00, View.ld_unit_zero (S := S1024x2048) off00, View.ld_unit_zero (S := S2048x128) off00]
end

section
variable (hc0 : ¬cond1_0 M.i) (hc1 : ¬cond1_1 M.i) (X : Blks1 F) (xs0 : Vec F S1024x128 .f32)
theorem acc_middle : sout1_B_0 c M hc0 hc1 X xs0 = k1_pay2 xs0 X.x0 X.x1 := by
  unfold sout1_B_0
  rw [View.read_writes_eq_canon _ _ _ (scover1_B_0 c M hc0 hc1 X xs0)]
  unfold kernelRun1_B
  dsimp only
  sl_unfold_words
  rw [View.canon_unit_zero off00]
  simp only [View.readAt_eq_ld, M.harg2.read_unread, M.harg3.read_unread, M.harg10.read_unread, View.ld_unit_zero (S := S1024x128) off00, View.ld_unit_zero (S := S1024x2048) off00, View.ld_unit_zero (S := S2048x128) off00]
end

section
variable (hc0 : ¬cond1_0 M.i) (hc1 : cond1_1 M.i) (X : Blks1 F) (xs0 : Vec F S1024x128 .f32)
theorem acc_last : sout1_C_0 c M hc0 hc1 X xs0 = k1_pay2 xs0 X.x0 X.x1 := by
  unfold sout1_C_0
  rw [View.read_writes_eq_canon _ _ _ (scover1_C_0 c M hc0 hc1 X xs0)]
  unfold kernelRun1_C
  dsimp only
  sl_unfold_words
  rw [View.canon_unit_zero off00]
  simp only [View.readAt_eq_ld, M.harg2.read_unread, M.harg3.read_unread, M.harg10.read_unread, View.ld_unit_zero (S := S1024x128) off00, View.ld_unit_zero (S := S1024x2048) off00, View.ld_unit_zero (S := S2048x128) off00]

-- The output block is computed from the accumulator as just stored.
theorem out_last : out1_C_7 c M hc0 hc1 X xs0 = k1_pay3 (k1_pay2 xs0 X.x0 X.x1) X.x6 X.x2 X.x3 X.x4 X.x5 := by
  unfold out1_C_7
  rw [View.read_writes_eq_canon _ _ _ (cover1_C_7 c M hc0 hc1 X xs0)]
  unfold kernelRun1_C
  dsimp only
  sl_unfold_words
  rw [View.canon_unit_zero off00]
  simp only [View.readAt_eq_ld, M.harg2.read_unread, M.harg3.read_unread, M.harg4.read_unread, M.harg5.read_unread, M.harg6.read_unread, M.harg7.read_unread, M.harg8.read_unread, M.harg10.read_unread, View.readCov_unit_zero (S := S1024x128) _ off00, View.ld_unit_zero (S := S1024x128) off00, View.ld_unit_zero (S := S1024x2048) off00, View.ld_unit_zero (S := S2048x128) off00, View.ld_unit_zero (S := S128x128) off00, View.ld_unit_zero (S := S1x128) off00, View.ld_unit_zero (S := S1024x1) off00]
end

end

section
variable (V : (c : Dev nD) → (b : Ref sig .tc) → Buf (Elt F) ((c : Thread nD τ).loc b)) (c : Dev nD) (t : Fin cfg1.N)

theorem acc_first_at (h0 : t.val % 5 = 0) (h1 : ¬t.val % 5 = 4) :
    (pt1A V c t h0 h1).2 = k1_pay2 (k1_pay1 (F := F)) (iblk1 V c 0 t) (iblk1 V c 1 t) := by
  dsimp only [pt1A]
  exact acc_first c (mems1 t) _ _ (blks1 V c t)

theorem acc_middle_at (h0 : ¬t.val % 5 = 0) (h1 : ¬t.val % 5 = 4) (xs : Vec F S1024x128 .f32) :
    (pt1B V c t h0 h1 xs).2 = k1_pay2 xs (iblk1 V c 0 t) (iblk1 V c 1 t) := by
  dsimp only [pt1B]
  exact acc_middle c (mems1 t) _ _ (blks1 V c t) xs

theorem acc_last_at (h0 : ¬t.val % 5 = 0) (h1 : t.val % 5 = 4) (xs : Vec F S1024x128 .f32) :
    (pt1C V c t h0 h1 xs).2 = k1_pay2 xs (iblk1 V c 0 t) (iblk1 V c 1 t) := by
  dsimp only [pt1C]
  exact acc_last c (mems1 t) _ _ (blks1 V c t) xs

theorem out_last_at (h0 : ¬t.val % 5 = 0) (h1 : t.val % 5 = 4) (xs : Vec F S1024x128 .f32) :
    (pt1C V c t h0 h1 xs).1 = k1_pay3 (k1_pay2 xs (iblk1 V c 0 t) (iblk1 V c 1 t)) (iblk1 V c 6 t) (iblk1 V c 2 t) (iblk1 V c 3 t) (iblk1 V c 4 t) (iblk1 V c 5 t) := by
  dsimp only [pt1C]
  exact out_last c (mems1 t) _ _ (blks1 V c t) xs
end

end Cert.KernelIdeal.Fr.R1

end
-- ==== Proof.KI.Value1b.lean ====
import proofs.«404208_j53145925321203_2_alg».proof.Proof.KI.Frame1
import Idealize.ShloMosaic.Lib.ValueIdx
import Idealize.ShloMosaic.Lib.Pipeline.Value

set_option maxRecDepth 16384

noncomputable section

namespace Cert.KernelIdeal.Fr.R1

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

-- Point t = 5·i + k reads block (i, k) of the counts, row block k and row block i of the features, row block i of the reciprocal degrees; the weights and the bias whole.
theorem blockIdx1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = t.val / 5 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 5 ∧ win1_6.index t (1 : Fin 2) = 0
    ∧ win1_7.index t (0 : Fin 2) = t.val / 5 ∧ win1_7.index t (1 : Fin 2) = 0 :=
  (by decide +kernel : ∀ t : Fin grid1.N, _)

theorem countBlock_apply (c : Dev nD) (t : Fin cfg1.N) (x : S1024x2048.Idx) (k : S10240x10240.Idx)
    (hk0 : (k 0).val = 1024 * (t.val / 5) + (x 0).val) (hk1 : (k 1).val = 2048 * (t.val % 5) + (x 1).val) :
    (iblk1 V c 0 t : Vec F S1024x2048 .bf16) x = (V c main_v25 : S10240x10240.Idx → Elt F .bf16) k := by
  obtain ⟨e00, e01, e10, e11, e20, e21, e30, e31, e40, e41, e50, e51, e60, e61, e70, e71⟩ := blockIdx1 t
  unfold iblk1
  rw [View.read_apply]
  show V c main_v25 _ = V c main_v25 _
  congr 1
  funext a
  apply Fin.ext
  match a with
  | ⟨0, _⟩ => show win1_0.index t (0 : Fin 2) * 1024 + 1 * (x 0).val = (k 0).val; rw [e00, hk0]; omega
  | ⟨1, _⟩ => show win1_0.index t (1 : Fin 2) * 2048 + 1 * (x 1).val = (k 1).val; rw [e01, hk1]; omega

theorem featBlock_apply (c : Dev nD) (t : Fin cfg1.N) (x : S2048x128.Idx) (k : S10240x128.Idx)
    (hk0 : (k 0).val = 2048 * (t.val % 5) + (x 0).val) (hk1 : (k 1).val = 0 + (x 1).val) :
    (iblk1 V c 1 t : Vec F S2048x128 .bf16) x = (V c main_v33 : S10240x128.Idx → Elt F .bf16) k := by
  obtain ⟨e00, e01, e10, e11, e20, e21, e30, e31, e40, e41, e50, e51, e60, e61, e70, e71⟩ := blockIdx1 t
  unfold iblk1
  rw [View.read_apply]
  show V c main_v33 _ = V c main_v33 _
  congr 1
  funext a
  apply Fin.ext
  match a with
  | ⟨0, _⟩ => show win1_1.index t (0 : Fin 2) * 2048 + 1 * (x 0).val = (k 0).val; rw [e10, hk0]; omega
  | ⟨1, _⟩ => show win1_1.index t (1 : Fin 2) * 128 + 1 * (x 1).val = (k 1).val; rw [e11, hk1]; omega

theorem selfBlock_apply (c : Dev nD) (t : Fin cfg1.N) (x : S1024x128.Idx) (k : S10240x128.Idx)
    (hk0 : (k 0).val = 1024 * (t.val / 5) + (x 0).val) (hk1 : (k 1).val = 0 + (x 1).val) :
    (iblk1 V c 2 t : Vec F S1024x128 .bf16) x = (V c main_v33 : S10240x128.Idx → Elt F .bf16) k := by
  obtain ⟨e00, e01, e10, e11, e20, e21, e30, e31, e40, e41, e50, e51, e60, e61, e70, e71⟩ := blockIdx1 t
  unfold iblk1
  rw [View.read_apply]
  show V c main_v33 _ = V c main_v33 _
  congr 1
  funext a
  apply Fin.ext
  match a with
  | ⟨0, _⟩ => show win1_2.index t (0 : Fin 2) * 1024 + 1 * (x 0).val = (k 0).val; rw [e20, hk0]; omega
  | ⟨1, _⟩ => show win1_2.index t (1 : Fin 2) * 128 + 1 * (x 1).val = (k 1).val; rw [e21, hk1]; omega

theorem selfWeights_apply (c : Dev nD) (t : Fin cfg1.N) (x : S128x128.Idx) (k : S128x128.Idx)
    (hk0 : (k 0).val = 0 + (x 0).val) (hk1 : (k 1).val = 0 + (x 1).val) :
    (iblk1 V c 3 t : Vec F S128x128 .bf16) x = (V c main_v35 : S128x128.Idx → Elt F .bf16) k := by
  obtain ⟨e00, e01, e10, e11, e20, e21, e30, e31, e40, e41, e50, e51, e60, e61, e70, e71⟩ := blockIdx1 t
  unfold iblk1
  rw [View.read_apply]
  show V c main_v35 _ = V c main_v35 _
  congr 1
  funext a
  apply Fin.ext
  match a with
  | ⟨0, _⟩ => show win1_3.index t (0 : Fin 2) * 128 + 1 * (x 0).val = (k 0).val; rw [e30, hk0]; omega
  | ⟨1, _⟩ => show win1_3.index t (1 : Fin 2) * 128 + 1 * (x 1).val = (k 1).val; rw [e31, hk1]; omega

theorem nbrWeights_apply (c : Dev nD) (t : Fin cfg1.N) (x : S128x128.Idx) (k : S128x128.Idx)
    (hk0 : (k 0).val = 0 + (x 0).val) (hk1 : (k 1).val = 0 + (x 1).val) :
    (iblk1 V c 4 t : Vec F S128x128 .bf16) x = (V c main_v37 : S128x128.Idx → Elt F .bf16) k := by
  obtain ⟨e00, e01, e10, e11, e20, e21, e30, e31, e40, e41, e50, e51, e60, e61, e70, e71⟩ := blockIdx1 t
  unfold iblk1
  rw [View.read_apply]
  show V c main_v37 _ = V c main_v37 _
  congr 1
  funext a
  apply Fin.ext
  match a with
  | ⟨0, _⟩ => show win1_4.index t (0 : Fin 2) * 128 + 1 * (x 0).val = (k 0).val; rw [e40, hk0]; omega
  | ⟨1, _⟩ => show win1_4.index t (1 : Fin 2) * 128 + 1 * (x 1).val = (k 1).val; rw [e41, hk1]; omega

theorem biasBlock_apply (c : Dev nD) (t : Fin cfg1.N) (x : S1x128.Idx) (k : S1x128.Idx)
    (hk0 : (k 0).val = 0 + (x 0).val) (hk1 : (k 1).val = 0 + (x 1).val) :
    (iblk1 V c 5 t : Vec F S1x128 .f32) x = (V c main_v38 : S1x128.Idx → Elt F .f32) k := by
  obtain ⟨e00, e01, e10, e11, e20, e21, e30, e31, e40, e41, e50, e51, e60, e61, e70, e71⟩ := blockIdx1 t
  unfold iblk1
  rw [View.read_apply]
  show V c main_v38 _ = V c main_v38 _
  congr 1
  funext a
  apply Fin.ext
  match a with
  | ⟨0, _⟩ => show win1_5.index t (0 : Fin 2) * 1 + 1 * (x 0).val = (k 0).val; rw [e50, hk0]; omega
  | ⟨1, _⟩ => show win1_5.index t (1 : Fin 2) * 128 + 1 * (x 1).val = (k 1).val; rw [e51, hk1]; omega

theorem invBlock_apply (c : Dev nD) (t : Fin cfg1.N) (x : S1024x1.Idx) (k : S10240x1.Idx)
    (hk0 : (k 0).val = 1024 * (t.val / 5) + (x 0).val) (hk1 : (k 1).val = 0 + (x 1).val) :
    (iblk1 V c 6 t : Vec F S1024x1 .f32) x = (V c main_v8 : S10240x1.Idx → Elt F .f32) k := by
  obtain ⟨e00, e01, e10, e11, e20, e21, e30, e31, e40, e41, e50, e51, e60, e61, e70, e71⟩ := blockIdx1 t
  unfold iblk1
  rw [View.read_apply]
  show V c main_v8 _ = V c main_v8 _
  congr 1
  funext a
  apply Fin.ext
  match a with
  | ⟨0, _⟩ => show win1_6.index t (0 : Fin 2) * 1024 + 1 * (x 0).val = (k 0).val; rw [e60, hk0]; omega
  | ⟨1, _⟩ => show win1_6.index t (1 : Fin 2) * 1 + 1 * (x 1).val = (k 1).val; rw [e61, hk1]; omega

end Cert.KernelIdeal.Fr.R1

end
-- ==== Proof.KI.Value1c.lean ====
import proofs.«404208_j53145925321203_2_alg».proof.Proof.KI.Value1a
import proofs.«404208_j53145925321203_2_alg».proof.Proof.KI.Value1b
import proofs.«404208_j53145925321203_2_alg».proof.Proof.Payload
import proofs.«404208_j53145925321203_2_alg».proof.Proof.SpecExt

set_option maxRecDepth 16384

noncomputable section

open scoped BigOperators

namespace Cert.KernelIdeal.Fr.R1

open Cert.KernelIdeal Cert.KernelIdeal.Gen
open Idealize.ShloMosaic Idealize.ShloMosaic.TcCoe Idealize.ShloMosaic.ValueIdx Idealize.SL.Sem
open Idealize.ShloMosaic.Pipeline (Dat)

-- One more block product: the first `n` products plus the `n`-th 2048 columns of row `R` against the matching rows.
theorem acc_step (xs : Vec Ideal S1024x128 .f32) (a : Vec Ideal S1024x2048 .bf16) (h : Vec Ideal S2048x128 .bf16)
    (A : ℕ → ℕ → EReal) (H : ℕ → Fin 128 → EReal) (R n : ℕ) (r : Fin 1024) (q : Fin 128)
    (hxs : xs (ix2 r q) = Sage.acc A H R q n)
    (ha : ∀ s : Fin 2048, a (ix2 r s) = A R (2048 * n + s.val))
    (hh : ∀ s : Fin 2048, h (ix2 s q) = H (2048 * n + s.val) q) :
    k1_pay2 (F := Ideal) xs a h (ix2 r q) = Sage.acc A H R q (n + 1) := by
  rw [Payload.R1.pay2_apply, hxs]
  show _ = Sage.acc A H R q n + ∑ s : Fin 2048, A R (2048 * n + s.val) * H (2048 * n + s.val) q
  congr 1
  exact Finset.sum_congr rfl fun s _ => by rw [ha, hh]

-- The output block is the round's formula at row `R` once every block it reads is known entry by entry.
theorem out_step (s : Vec Ideal S1024x128 .f32) (inv : Vec Ideal S1024x1 .f32) (hs : Vec Ideal S1024x128 .bf16)
    (ws wn : Vec Ideal S128x128 .bf16) (b : Vec Ideal S1x128 .f32)
    (A : ℕ → ℕ → EReal) (H : ℕ → Fin 128 → EReal) (WsT WnT : Fin 128 → Fin 128 → EReal) (bb : Fin 128 → EReal)
    (iv : ℕ → EReal) (R : ℕ) (r : Fin 1024) (p : Fin 128)
    (hs_eq : ∀ f : Fin 128, hs (ix2 r f) = H R f) (hws : ∀ f : Fin 128, ws (ix2 f p) = WsT f p)
    (hwn : ∀ f : Fin 128, wn (ix2 f p) = WnT f p) (hb : b (ix2 0 p) = bb p) (hinv : inv (ix2 r 0) = iv R)
    (hacc : ∀ f : Fin 128, s (ix2 r f) = Sage.acc A H R f 5) :
    k1_pay3 (F := Ideal) s inv hs ws wn b (ix2 r p) = Sage.klayer A H WsT WnT bb iv R p := by
  rw [Payload.R1.pay3_apply]
  unfold Sage.klayer
  simp only [hs_eq, hws, hwn, hb, hinv, hacc]

variable (V : (c : Dev nD) → (b : Ref sig .tc) → Buf (Elt Ideal) ((c : Thread nD τ).loc b))

abbrev counts (c : Dev nD) : S10240x10240.Idx → EReal := V c main_v25
abbrev feats (c : Dev nD) : S10240x128.Idx → EReal := V c main_v33
abbrev invDeg (c : Dev nD) : S10240x1.Idx → EReal := V c main_v8

-- After point `n = 5·i + k` the accumulator holds at (r, q) the first `k + 1` block products of row `1024·i + r`.
theorem acc_at (c : Dev nD) : ∀ (n : ℕ) (hn : n < cfg1.N) (r : Fin 1024) (q : Fin 128),
    ((outsAt1 V c n hn).2 : Vec Ideal S1024x128 .f32) (ix2 r q)
      = Sage.acc (Sage.ext2 (counts V c)) (Sage.extRow (feats V c)) (1024 * (n / 5) + r.val) q (n % 5 + 1) := by
  intro n
  induction n using Nat.strong_induction_on with
  | _ n ih =>
    intro hn r q
    have hN : n < 50 := lt_of_lt_of_eq hn (show cfg1.N = 50 from N_1)
    have hr : 1024 * (n / 5) + r.val < 10240 := by have := r.isLt; omega
    have hs : ∀ s : Fin 2048, 2048 * (n % 5) + s.val < 10240 := fun s => by have := s.isLt; omega
    have ha : ∀ s : Fin 2048, (iblk1 V c 0 ⟨n, hn⟩ : Vec Ideal S1024x2048 .bf16) (ix2 r s)
        = Sage.ext2 (counts V c) (1024 * (n / 5) + r.val) (2048 * (n % 5) + s.val) := fun s =>
      (countBlock_apply V c ⟨n, hn⟩ (ix2 r s) (ix2 ⟨_, hr⟩ ⟨_, hs s⟩) rfl rfl).trans (Sage.ext2_of_lt _ _ _ hr (hs s)).symm
    have hh : ∀ s : Fin 2048, (iblk1 V c 1 ⟨n, hn⟩ : Vec Ideal S2048x128 .bf16) (ix2 s q)
        = Sage.extRow (feats V c) (2048 * (n % 5) + s.val) q := fun s =>
      (featBlock_apply V c ⟨n, hn⟩ (ix2 s q) (ix2 ⟨_, hs s⟩ q) rfl (Nat.zero_add _).symm).trans (Sage.extRow_of_lt _ _ _ (hs s)).symm
    have step := fun (xs : Vec Ideal S1024x128 .f32) hxs => acc_step xs (iblk1 V c 0 ⟨n, hn⟩) (iblk1 V c 1 ⟨n, hn⟩) (Sage.ext2 (counts V c))
      (Sage.extRow (feats V c)) (1024 * (n / 5) + r.val) (n % 5) r q hxs ha hh
    by_cases h0 : n % 5 = 0
    · have h1 : ¬n % 5 = 4 := by omega
      rw [outsAt1_A V c ⟨n, hn⟩ h0 h1, acc_first_at V c ⟨n, hn⟩ h0 h1]
      exact step _ (by rw [h0]; exact Payload.R1.pay1_apply r q)
    · have hprev := ih (n - 1) (by omega) (Nat.lt_of_le_of_lt (Nat.sub_le _ _) hn) r q
      rw [show (n - 1) / 5 = n / 5 from by omega, show (n - 1) % 5 + 1 = n % 5 from by omega] at hprev
      by_cases h1 : n % 5 = 4
      · rw [outsAt1_C V c ⟨n, hn⟩ h0 h1, acc_last_at]
        exact step _ hprev
      · rw [outsAt1_B V c ⟨n, hn⟩ h0 h1, acc_middle_at]
        exact step _ hprev

abbrev selfW (c : Dev nD) : S128x128.Idx → EReal := V c main_v35
abbrev nbrW (c : Dev nD) : S128x128.Idx → EReal := V c main_v37
abbrev biasRow (c : Dev nD) : S1x128.Idx → EReal := V c main_v38

abbrev layerOut (c : Dev nD) : S10240x128.Idx → EReal := fun j =>
  Sage.klayer (Sage.ext2 (counts V c)) (Sage.extRow (feats V c)) (fun k p => selfW V c (ix2 k p))
    (fun k p => nbrW V c (ix2 k p)) (fun p => biasRow V c (ix2 0 p)) (Sage.extCol (invDeg V c)) (j 0).val (j 1)

theorem mem_outBlock (t : Fin cfg1.N) (i : S10240x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v39).slice (win1_7.rect t)).set ↔ _
  rw [View.set_slice_whole, Rect.mem_set_unit]
  exact Iff.rfl

-- What a point with k = 4 writes back is its block of the round's formula: the accumulator then holds all five products.
theorem flushed1_eq (c : Dev nD) (t : Fin cfg1.N) (hf : (cfg1.win 7).flush t = true) :
    (dat1 V c).flushed 7 t = ((cfg1.win 7).blk t).view.read (Elt Ideal) (layerOut V c) := by
  have h1 : t.val % 5 = 4 := (flush1_7 t).mp hf
  have h0 : ¬t.val % 5 = 0 := by omega
  have hN : t.val < 50 := lt_of_lt_of_eq t.isLt (show cfg1.N = 50 from N_1)
  obtain ⟨e00, e01, e10, e11, e20, e21, e30, e31, e40, e41, e50, e51, e60, e61, e70, e71⟩ := blockIdx1 t
  show (cfg1.win 7).cut (grid1.coords t) ((dat1 V c).after 7 t) = _
  rw [after1_7, outsAt1_C V c t h0 h1, out_last_at]
  funext y
  obtain ⟨r, p, rfl⟩ : ∃ (r : Fin 1024) (p : Fin 128), y = ix2 r p := ⟨y 0, y 1, eq_ix2 y⟩
  have hR : 1024 * (t.val / 5) + r.val < 10240 := by have := r.isLt; omega
  have hemb : ((cfg1.win 7).blk t).view.emb (ix2 r p) = (ix2 ⟨1024 * (t.val / 5) + r.val, hR⟩ p : S10240x128.Idx) := by
    funext a; apply Fin.ext
    match a with
    | ⟨0, _⟩ => show win1_7.index t (0 : Fin 2) * 1024 + 1 * r.val = 1024 * (t.val / 5) + r.val; rw [e70]; omega
    | ⟨1, _⟩ => show win1_7.index t (1 : Fin 2) * 128 + 1 * p.val = p.val; rw [e71]; omega
  rw [View.read_apply, hemb]
  have hacc : ∀ f : Fin 128, k1_pay2 (F := Ideal) (outsAt1 V c (t.val - 1) (Nat.lt_of_le_of_lt (Nat.sub_le _ _) t.isLt)).2 (iblk1 V c 0 t) (iblk1 V c 1 t) (ix2 r f)
      = Sage.acc (Sage.ext2 (counts V c)) (Sage.extRow (feats V c)) (1024 * (t.val / 5) + r.val) f 5 := fun f => by
    have h := acc_at V c t.val t.isLt r f
    rw [outsAt1_C V c t h0 h1, acc_last_at, h1] at h
    exact h
  exact out_step (k1_pay2 (F := Ideal) (outsAt1 V c (t.val - 1) (Nat.lt_of_le_of_lt (Nat.sub_le _ _) t.isLt)).2 (iblk1 V c 0 t) (iblk1 V c 1 t)) (iblk1 V c 6 t) (iblk1 V c 2 t) (iblk1 V c 3 t) (iblk1 V c 4 t) (iblk1 V c 5 t)
    (Sage.ext2 (counts V c)) (Sage.extRow (feats V c)) (fun k p => selfW V c (ix2 k p)) (fun k p => nbrW V c (ix2 k p)) (fun p => biasRow V c (ix2 0 p)) (Sage.extCol (invDeg V c))
    (1024 * (t.val / 5) + r.val) r p
    (fun f => (selfBlock_apply V c t (ix2 r f) (ix2 ⟨_, hR⟩ f) rfl (Nat.zero_add _).symm).trans (Sage.extRow_of_lt _ _ _ hR).symm)
    (fun f => selfWeights_apply V c t (ix2 f p) (ix2 f p) (Nat.zero_add _).symm (Nat.zero_add _).symm)
    (fun f => nbrWeights_apply V c t (ix2 f p) (ix2 f p) (Nat.zero_add _).symm (Nat.zero_add _).symm)
    (biasBlock_apply V c t (ix2 0 p) (ix2 0 p) (Nat.zero_add _).symm (Nat.zero_add _).symm)
    ((invBlock_apply V c t (ix2 r 0) (ix2 ⟨_, hR⟩ 0) rfl (Nat.zero_add _).symm).trans (Sage.extCol_of_lt _ _ hR).symm)
    hacc

-- The ten written blocks tile the output array: row `R` is written by the last point of its row block.
theorem arrAt1_eq (c : Dev nD) : (dat1 V c).arrAt 7 cfg1.N = layerOut V c :=
  (dat1 V c).arrAt_eq_of_cover 7 (layerOut V c) (fun t hf => flushed1_eq V c t hf) fun i => by
    have hi0 : (i 0).val < 10240 := (i 0).isLt
    have hi1 : (i 1).val < 128 := (i 1).isLt
    have hN : cfg1.N = 50 := N_1
    have ht : 5 * ((i 0).val / 1024) + 4 < cfg1.N := by rw [hN]; omega
    refine ⟨⟨5 * ((i 0).val / 1024) + 4, ht⟩, (flush1_7 _).mpr (by dsimp only; omega), ?_⟩
    obtain ⟨e00, e01, e10, e11, e20, e21, e30, e31, e40, e41, e50, e51, e60, e61, e70, e71⟩ := blockIdx1 ⟨5 * ((i 0).val / 1024) + 4, ht⟩
    dsimp only at e70 e71
    rw [mem_outBlock]
    intro a
    match a with
    | ⟨0, _⟩ =>
      show win1_7.index ⟨5 * ((i 0).val / 1024) + 4, ht⟩ (0 : Fin 2) * 1024 ≤ (i 0).val ∧ (i 0).val < win1_7.index ⟨5 * ((i 0).val / 1024) + 4, ht⟩ (0 : Fin 2) * 1024 + 1024
      rw [e70]; omega
    | ⟨1, _⟩ =>
      show win1_7.index ⟨5 * ((i 0).val / 1024) + 4, ht⟩ (1 : Fin 2) * 128 ≤ (i 1).val ∧ (i 1).val < win1_7.index ⟨5 * ((i 0).val / 1024) + 4, ht⟩ (1 : Fin 2) * 128 + 128
      rw [e71]; omega

theorem arrAt1_apply (c : Dev nD) (R : Fin 10240) (p : Fin 128) :
    ((dat1 (F := Ideal) V c).arrAt 7 cfg1.N : S10240x128.Idx → EReal) (ix2 R p)
      = Sage.klayer (Sage.ext2 (V c main_v25 : S10240x10240.Idx → EReal)) (Sage.extRow (V c main_v33 : S10240x128.Idx → EReal))
          (fun k p => (V c main_v35 : S128x128.Idx → EReal) (ix2 k p)) (fun k p => (V c main_v37 : S128x128.Idx → EReal) (ix2 k p))
          (fun p => (V c main_v38 : S1x128.Idx → EReal) (ix2 0 p)) (Sage.extCol (V c main_v8 : S10240x1.Idx → EReal)) R.val p :=
  congrFun (arrAt1_eq V c) (ix2 R p)

end Cert.KernelIdeal.Fr.R1

end
-- ==== Proof.LibScatter.lean ====
import Idealize.ShloMosaic.PureOps.Ideal
import Idealize.ShloMosaic.Lib.ValueIdxRank1

noncomputable section

open scoped BigOperators

namespace RowOps

open Idealize.ShloMosaic Idealize.ShloMosaic.ValueIdx

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Scatter1

abbrev scatterDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

theorem start1 : (scatterDims1 N E wf).start (ix1 e) idx 0 = (idx (ix2 e 0)).toInt := by
  unfold ScatterDims.start
  rw [dif_pos (show (0 : Fin 1) ∈ (scatterDims1 N E wf).scatterDimsToOperandDims from List.mem_singleton.mpr rfl)]
  have hsi : (scatterDims1 N E wf).siIdx (ix1 e) ⟨List.idxOf (0 : Fin 1) (scatterDims1 N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem window1 : (scatterDims1 N E wf).window (ix1 e) 0 = 0 := by
  unfold ScatterDims.window
  rw [dif_neg (show (0 : Fin 1) ∉ (scatterDims1 N E wf).sKept from by
    show (0 : Fin 1) ∉ (List.finRange 1).filter (fun a => a ∉ [(0 : Fin 1)]); decide)]

theorem resultIdx1?_eq_some_iff (r : Fin N) :
    (scatterDims1 N E wf).resultIdx? (ix1 e) idx = some (ix1 r) ↔ (idx (ix2 e 0)).toInt = (r.val : Int) := by
  unfold ScatterDims.resultIdx?
  have hr := r.isLt
  split
  · rename_i h
    rw [Option.some.injEq]
    constructor
    · intro hf
      have h0 := congrArg (fun f : (⟨1, ![N]⟩ : Shape).Idx => (f 0).val) hf
      simp only [start1, window1] at h0
      have hh := (h 0).1
      simp only [start1, window1] at hh
      have : ((idx (ix2 e 0)).toInt + ((0 : Nat) : Int)).toNat = r.val := h0
      omega
    · intro hs
      funext a
      refine Fin.ext ?_
      match a with
      | ⟨0, _⟩ =>
        show ((scatterDims1 N E wf).start (ix1 e) idx 0 + ((scatterDims1 N E wf).window (ix1 e) 0 : Nat)).toNat = r.val
        rw [start1, window1, hs]; omega
  · rename_i h
    constructor
    · intro hf; exact absurd hf (by simp)
    · intro hs
      refine absurd (fun a => ?_) h
      match a with
      | ⟨0, _⟩ =>
        show 0 ≤ (scatterDims1 N E wf).start (ix1 e) idx 0 + ((scatterDims1 N E wf).window (ix1 e) 0 : Nat)
          ∧ (scatterDims1 N E wf).start (ix1 e) idx 0 + ((scatterDims1 N E wf).window (ix1 e) 0 : Nat) < (N : Int)
        rw [start1, window1, hs]; omega

-- A scatter-add of one scalar per update into a vector, read at an index: the operand plus the updates whose index lands there.
theorem scatterAdd1_apply {φ : FTy} (x : FVec Ideal ⟨1, ![N]⟩ φ) (upd : FVec Ideal ⟨1, ![E]⟩ φ) (r : Fin N) :
    Host.scatterAdd (F := Ideal) (scatterDims1 N E wf) x idx upd (ix1 r)
      = x (ix1 r) + ∑ e ∈ Finset.univ.filter (fun e : Fin E => (idx (ix2 e 0)).toInt = (r.val : Int)), upd (ix1 e) := by
  unfold Host.scatterAdd
  rw [Ideal.hostScatterAdd_def]
  unfold Ideal.hostScatterAdd
  congr 1
  rw [Finset.sum_filter, sum_idx1, Finset.sum_filter]
  refine Finset.sum_congr rfl fun e _ => ?_
  simp only [resultIdx1?_eq_some_iff]

end Scatter1

section Scatter2

abbrev scatterDims2 (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)
  (idx : IVec ⟨2, ![E, 2]⟩ w) (e : Fin E)

theorem start2_row : (scatterDims2 N M E wf).start (ix1 e) idx 0 = (idx (ix2 e 0)).toInt := by
  unfold ScatterDims.start
  have hm : (0 : Fin 2) ∈ (scatterDims2 N M E wf).scatterDimsToOperandDims := by
    show (0 : Fin 2) ∈ [(0 : Fin 2), 1]; decide
  rw [dif_pos hm]
  have hsi : (scatterDims2 N M E wf).siIdx (ix1 e) ⟨List.idxOf (0 : Fin 2) (scatterDims2 N M E wf).scatterDimsToOperandDims,
      List.idxOf_lt_length_iff.2 hm⟩ = ix2 e 0 := by
    funext b; refine Fin.ext ?_
    match b with
    | ⟨0, _⟩ => rfl
    | ⟨1, _⟩ => rfl
  rw [hsi]

theorem start2_col : (scatterDims2 N M E wf).start (ix1 e) idx 1 = (idx (ix2 e 1)).toInt := by
  unfold ScatterDims.start
  have hm : (1 : Fin 2) ∈ (scatterDims2 N M E wf).scatterDimsToOperandDims := by
    show (1 : Fin 2) ∈ [(0 : Fin 2), 1]; decide
  rw [dif_pos hm]
  have hsi : (scatterDims2 N M E wf).siIdx (ix1 e) ⟨List.idxOf (1 : Fin 2) (scatterDims2 N M E wf).scatterDimsToOperandDims,
      List.idxOf_lt_length_iff.2 hm⟩ = ix2 e 1 := by
    funext b; refine Fin.ext ?_
    match b with
    | ⟨0, _⟩ => rfl
    | ⟨1, _⟩ => rfl
  rw [hsi]

theorem window2 (a : Fin 2) : (scatterDims2 N M E wf).window (ix1 e) a = 0 := by
  unfold ScatterDims.window
  rw [dif_neg (show a ∉ (scatterDims2 N M E wf).sKept from by
    show a ∉ (List.finRange 2).filter (fun a => a ∉ [(0 : Fin 2), 1])
    revert a; decide)]

theorem resultIdx2?_eq_some_iff (r : Fin N) (s : Fin M) :
    (scatterDims2 N M E wf).resultIdx? (ix1 e) idx = some (ix2 r s)
      ↔ (idx (ix2 e 0)).toInt = (r.val : Int) ∧ (idx (ix2 e 1)).toInt = (s.val : Int) := by
  unfold ScatterDims.resultIdx?
  have hr := r.isLt
  have hs' := s.isLt
  split
  · rename_i h
    rw [Option.some.injEq]
    constructor
    · intro hf
      have h0 := congrArg (fun f : (⟨2, ![N, M]⟩ : Shape).Idx => (f 0).val) hf
      have h1 := congrArg (fun f : (⟨2, ![N, M]⟩ : Shape).Idx => (f 1).val) hf
      simp only [start2_row, start2_col, window2] at h0 h1
      have hh0 := (h 0).1
      have hh1 := (h 1).1
      simp only [start2_row, start2_col, window2] at hh0 hh1
      refine ⟨?_, ?_⟩
      · have : ((idx (ix2 e 0)).toInt + ((0 : Nat) : Int)).toNat = r.val := h0
        omega
      · have : ((idx (ix2 e 1)).toInt + ((0 : Nat) : Int)).toNat = s.val := h1
        omega
    · rintro ⟨hr0, hs0⟩
      funext a
      refine Fin.ext ?_
      match a with
      | ⟨0, _⟩ =>
        show ((scatterDims2 N M E wf).start (ix1 e) idx 0 + ((scatterDims2 N M E wf).window (ix1 e) 0 : Nat)).toNat = r.val
        rw [start2_row, window2, hr0]; omega
      | ⟨1, _⟩ =>
        show ((scatterDims2 N M E wf).start (ix1 e) idx 1 + ((scatterDims2 N M E wf).window (ix1 e) 1 : Nat)).toNat = s.val
        rw [start2_col, window2, hs0]; omega
  · rename_i h
    constructor
    · intro hf; exact absurd hf (by simp)
    · rintro ⟨hr0, hs0⟩
      refine absurd (fun a => ?_) h
      match a with
      | ⟨0, _⟩ =>
        show 0 ≤ (scatterDims2 N M E wf).start (ix1 e) idx 0 + ((scatterDims2 N M E wf).window (ix1 e) 0 : Nat)
          ∧ (scatterDims2 N M E wf).start (ix1 e) idx 0 + ((scatterDims2 N M E wf).window (ix1 e) 0 : Nat) < (N : Int)
        rw [start2_row, window2, hr0]; omega
      | ⟨1, _⟩ =>
        show 0 ≤ (scatterDims2 N M E wf).start (ix1 e) idx 1 + ((scatterDims2 N M E wf).window (ix1 e) 1 : Nat)
          ∧ (scatterDims2 N M E wf).start (ix1 e) idx 1 + ((scatterDims2 N M E wf).window (ix1 e) 1 : Nat) < (M : Int)
        rw [start2_col, window2, hs0]; omega

-- The same into a matrix, an update addressed by a (row, column) pair.
theorem scatterAdd2_apply {φ : FTy} (x : FVec Ideal ⟨2, ![N, M]⟩ φ) (upd : FVec Ideal ⟨1, ![E]⟩ φ) (r : Fin N) (s : Fin M) :
    Host.scatterAdd (F := Ideal) (scatterDims2 N M E wf) x idx upd (ix2 r s)
      = x (ix2 r s) + ∑ e ∈ Finset.univ.filter (fun e : Fin E =>
          (idx (ix2 e 0)).toInt = (r.val : Int) ∧ (idx (ix2 e 1)).toInt = (s.val : Int)), upd (ix1 e) := by
  unfold Host.scatterAdd
  rw [Ideal.hostScatterAdd_def]
  unfold Ideal.hostScatterAdd
  congr 1
  rw [Finset.sum_filter, sum_idx1, Finset.sum_filter]
  refine Finset.sum_congr rfl fun e _ => ?_
  simp only [resultIdx2?_eq_some_iff]

end Scatter2

end RowOps

end
-- ==== Proof.KHost.lean ====
import proofs.«404208_j53145925321203_2_alg».proof.Proof.Gen.KernelIdeal.Regions
import proofs.«404208_j53145925321203_2_alg».proof.Proof.Spec
import proofs.«404208_j53145925321203_2_alg».proof.Proof.LibScatter
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

open scoped BigOperators

namespace Cert.KernelIdeal.HostValue

open Cert.KernelIdeal Cert.KernelIdeal.Gen Idealize.ShloMosaic Idealize.ShloMosaic.ValueIdx
open Idealize.ShloMosaic.TcCoe

variable (m : (ℓ : Loc nD τ sig) → Buf (Elt Ideal) ℓ) (outs : Outs (F := Ideal)) (c : Dev nD)

abbrev arg0 : S10000x128.Idx → EReal := m ((c : Thread nD τ).loc main_arg0)
abbrev arg1 : IVec S640000 32 := m ((c : Thread nD τ).loc main_arg1)
abbrev arg2 : IVec S640000 32 := m ((c : Thread nD τ).loc main_arg2)
abbrev arg3 : S128x128.Idx → EReal := m ((c : Thread nD τ).loc main_arg3)
abbrev arg4 : S128x128.Idx → EReal := m ((c : Thread nD τ).loc main_arg4)
abbrev arg5 : S128.Idx → EReal := m ((c : Thread nD τ).loc main_arg5)
abbrev arg6 : S128x128.Idx → EReal := m ((c : Thread nD τ).loc main_arg6)
abbrev arg7 : S128x128.Idx → EReal := m ((c : Thread nD τ).loc main_arg7)
abbrev arg8 : S128.Idx → EReal := m ((c : Thread nD τ).loc main_arg8)

theorem V3_v29_term : (V3 m c main_v29 : S128x128.Idx → EReal)
    = transpose S128x128 [1, 0] (arg3 m c) transposes_S128x128_S128x128_1_0 := by
  dsimp only [V3, V2, V1, V0]
  show StableHlo.after hostOps0_2 _ (Proc.devRef .tc main_v29) = _
  after_results
  rfl

theorem V3_v29 (k p : Fin 128) : (V3 m c main_v29 : S128x128.Idx → EReal) (ix2 k p) = arg3 m c (ix2 p k) := by
  rw [V3_v29_term]
  exact transpose_ix2_apply _ _ k p

theorem V3_v31_term : (V3 m c main_v31 : S128x128.Idx → EReal)
    = transpose S128x128 [1, 0] (arg4 m c) transposes_S128x128_S128x128_1_0 := by
  dsimp only [V3, V2, V1, V0]
  show StableHlo.after hostOps0_2 _ (Proc.devRef .tc main_v31) = _
  after_results
  rfl

theorem V3_v31 (k p : Fin 128) : (V3 m c main_v31 : S128x128.Idx → EReal) (ix2 k p) = arg4 m c (ix2 p k) := by
  rw [V3_v31_term]
  exact transpose_ix2_apply _ _ k p

theorem V3_v32_term : (V3 m c main_v32 : S1x128.Idx → EReal)
    = shapeCast S1x128 (arg5 m c) shapeCasts_S128_S1x128 := by
  dsimp only [V3, V2, V1, V0]
  show StableHlo.after hostOps0_2 _ (Proc.devRef .tc main_v32) = _
  after_results
  rfl

theorem V3_v32 (p : Fin 128) : (V3 m c main_v32 : S1x128.Idx → EReal) (ix2 0 p) = arg5 m c (ix1 p) := by
  rw [V3_v32_term]
  exact shapeCast_a_1a_apply _ _ 0 p

theorem V3_v27_term : (V3 m c main_v27 : S10240x128.Idx → EReal)
    = pad S10240x128 ![0, 0] ![240, 0] ![0, 0] (arg0 m c)
        (sitofp (F := Ideal) .f32 (constantI S_ 32 0#32)) pads_S10000x128_S10240x128_02400_000 h_S_ := by
  dsimp only [V3, V2, V1, V0]
  show StableHlo.after hostOps0_2 _ (Proc.devRef .tc main_v27) = _
  after_results
  rfl

theorem V3_v27 (r : Fin 10240) (k : Fin 128) : (V3 m c main_v27 : S10240x128.Idx → EReal) (ix2 r k)
    = if h : r.val < 10000 then arg0 m c (ix2 ⟨r.val, h⟩ k) else 0 := by
  rw [V3_v27_term]
  by_cases h : r.val < 10000
  · rw [dif_pos h]
    refine pad_apply_of_inside _ _ _ _ _ _ _ (ix2 r k) (ix2 ⟨r.val, h⟩ k) fun a => ?_
    match a with
    | ⟨0, _⟩ => show r.val = 0 + r.val * (0 + 1); omega
    | ⟨1, _⟩ => show k.val = 0 + k.val * (0 + 1); omega
  · rw [dif_neg h]
    refine (pad_apply_of_not_inside _ _ _ _ _ _ _ (ix2 r k) (0 : Fin 2) ?_).trans ?_
    · show ¬(0 ≤ r.val ∧ (r.val - 0) % (0 + 1) = 0 ∧ (r.val - 0) / (0 + 1) < 10000)
      omega
    · show ((((0#32 : BitVec 32).toInt : ℝ)) : EReal) = 0
      simp

theorem V5_v35_term : (V5 m outs c main_v35 : S128x128.Idx → EReal)
    = transpose S128x128 [1, 0] (arg6 m c) transposes_S128x128_S128x128_1_0 := by
  have h6 : V4 m outs c main_arg6 = m ((c : Thread nD τ).loc main_arg6) :=
    (V4_of m outs c main_arg6 (by decide)).trans <| (V3_of m c main_arg6 (by decide)).trans <|
      (V2_of m c main_arg6 (by decide)).trans <| (V1_of m c main_arg6 (by decide)).trans rfl
  dsimp only [V5]
  show StableHlo.after hostOps1 _ (Proc.devRef .tc main_v35) = _
  after_results
  rw [h6]
  rfl

theorem V5_v35 (k p : Fin 128) : (V5 m outs c main_v35 : S128x128.Idx → EReal) (ix2 k p) = arg6 m c (ix2 p k) := by
  rw [V5_v35_term]
  exact transpose_ix2_apply _ _ k p

theorem V5_v37_term : (V5 m outs c main_v37 : S128x128.Idx → EReal)
    = transpose S128x128 [1, 0] (arg7 m c) transposes_S128x128_S128x128_1_0 := by
  have h7 : V4 m outs c main_arg7 = m ((c : Thread nD τ).loc main_arg7) :=
    (V4_of m outs c main_arg7 (by decide)).trans <| (V3_of m c main_arg7 (by decide)).trans <|
      (V2_of m c main_arg7 (by decide)).trans <| (V1_of m c main_arg7 (by decide)).trans rfl
  dsimp only [V5]
  show StableHlo.after hostOps1 _ (Proc.devRef .tc main_v37) = _
  after_results
  rw [h7]
  rfl

theorem V5_v37 (k p : Fin 128) : (V5 m outs c main_v37 : S128x128.Idx → EReal) (ix2 k p) = arg7 m c (ix2 p k) := by
  rw [V5_v37_term]
  exact transpose_ix2_apply _ _ k p

theorem V5_v38_term : (V5 m outs c main_v38 : S1x128.Idx → EReal)
    = shapeCast S1x128 (arg8 m c) shapeCasts_S128_S1x128 := by
  have h8 : V4 m outs c main_arg8 = m ((c : Thread nD τ).loc main_arg8) :=
    (V4_of m outs c main_arg8 (by decide)).trans <| (V3_of m c main_arg8 (by decide)).trans <|
      (V2_of m c main_arg8 (by decide)).trans <| (V1_of m c main_arg8 (by decide)).trans rfl
  dsimp only [V5]
  show StableHlo.after hostOps1 _ (Proc.devRef .tc main_v38) = _
  after_results
  rw [h8]
  rfl

theorem V5_v38 (p : Fin 128) : (V5 m outs c main_v38 : S1x128.Idx → EReal) (ix2 0 p) = arg8 m c (ix1 p) := by
  rw [V5_v38_term]
  exact shapeCast_a_1a_apply _ _ 0 p

theorem V5_v25 : V5 m outs c main_v25 = V3 m c main_v25 :=
  (V5_of m outs c main_v25 (by decide)).trans (V4_of m outs c main_v25 (by decide))

theorem V5_v8 : V5 m outs c main_v8 = V3 m c main_v8 :=
  (V5_of m outs c main_v8 (by decide)).trans (V4_of m outs c main_v8 (by decide))

theorem V5_v33 : V5 m outs c main_v33 = outs 4 main_v33 c :=
  (V5_of m outs c main_v33 (by decide)).trans (by
    show Function.update (V3 m c) (Proc.devRef .tc main_v33) (outs 4 main_v33 c) (Proc.devRef .tc main_v33) = _
    exact Function.update_self ..)

theorem V7_v40_term : (V7 m outs c main_v40 : S10000x128.Idx → EReal)
    = extractStridedSlice S10000x128 ![0, 0] (outs 6 main_v39 c : S10240x128.Idx → EReal) slices_S10240x128_S10000x128_0_0 := by
  have h39 : V6 m outs c main_v39 = outs 6 main_v39 c := by
    show Function.update (V5 m outs c) (Proc.devRef .tc main_v39) (outs 6 main_v39 c) (Proc.devRef .tc main_v39) = _
    exact Function.update_self ..
  dsimp only [V7]
  show StableHlo.after hostOps2 _ (Proc.devRef .tc main_v40) = _
  after_results
  rw [h39]

-- The result is the first 10000 rows of the second region's output.
theorem V7_v40 (r : Fin 10000) (p : Fin 128) : (V7 m outs c main_v40 : S10000x128.Idx → EReal) (ix2 r p)
    = (outs 6 main_v39 c : S10240x128.Idx → EReal) (ix2 ⟨r.val, by omega⟩ p) := by
  rw [V7_v40_term]
  exact slice2_axis0_apply 0 _ _ r p ⟨r.val, by omega⟩ (by show r.val = 0 + r.val; omega)

abbrev ones (T : Shape) (h : S_.BroadcastsInDim T (![] : Fin 0 → Fin T.rank)) : T.Idx → EReal :=
  broadcastInDim T ![] h (constant (F := Ideal) S_ .f32 0x3F800000#32)
abbrev zeros (T : Shape) (h : S_.BroadcastsInDim T (![] : Fin 0 → Fin T.rank)) : T.Idx → EReal :=
  broadcastInDim T ![] h (constant (F := Ideal) S_ .f32 0x00000000#32)

theorem ones_apply (T : Shape) (h : S_.BroadcastsInDim T (![] : Fin 0 → Fin T.rank)) (j : T.Idx) : ones T h j = 1 := by
  unfold ones
  rw [broadcastInDim_scalar_apply, constant_apply, Ideal.ofBits_one_f32]

theorem zeros_apply (T : Shape) (h : S_.BroadcastsInDim T (![] : Fin 0 → Fin T.rank)) (j : T.Idx) : zeros T h j = 0 := by
  unfold zeros
  rw [broadcastInDim_scalar_apply, constant_apply, Ideal.ofBits_zero_f32]

abbrev dstCol : IVec S640000x1 32 := broadcastInDim S640000x1 ![0] bcast_S640000_S640000x1_0 (arg2 m c)

theorem dstCol_apply (e : Fin 640000) : dstCol m c (ix2 e 0) = arg2 m c (ix1 e) :=
  broadcastInDim_apply _ _ _ _ (ix1 e) fun a => match a with | ⟨0, _⟩ => rfl

theorem V3_v8_term : (V3 m c main_v8 : S10240x1.Idx → EReal)
    = shapeCast S10240x1 (Host.divf (F := Ideal) (φ := .f32) (ones S10240 bcast_S_S10240)
        (maximumf (F := Ideal) (φ := .f32)
          (Host.scatterAdd (F := Ideal) scatter_S10240_S640000x1_S640000_n_0_0_1 (zeros S10240 bcast_S_S10240) (dstCol m c)
            (ones S640000 bcast_S_S640000))
          (ones S10240 bcast_S_S10240))) shapeCasts_S10240_S10240x1 := by
  have h8 : V3 m c main_v8 = V1 m c main_v8 := (V3_of m c main_v8 (by decide)).trans (V2_of m c main_v8 (by decide))
  rw [h8]
  dsimp only [V1, V0]
  show StableHlo.after hostOps0 _ (Proc.devRef .tc main_v8) = _
  after_results
  rfl

theorem scatter1_eq : scatter_S10240_S640000x1_S640000_n_0_0_1
    = RowOps.scatterDims1 10240 640000 scatter_S10240_S640000x1_S640000_n_0_0_1_wf := rfl

-- The reciprocal-degree column the host builds: a scatter-add of ones by destination, clamped below by 1, inverted.
theorem V3_v8 (h2 : ∀ i, 0 ≤ (arg2 m c i).toInt ∧ (arg2 m c i).toInt < 10000) (r : Fin 10240) :
    (V3 m c main_v8 : S10240x1.Idx → EReal) (ix2 r 0) = Sage.invdeg (Sage.rowOf (arg2 m c) h2) r.val := by
  rw [V3_v8_term]
  refine (shapeCast_apply _ _ (ix2 r 0) (ix1 r) (by
    rw [Shape.rowMajor_val_one, Shape.rowMajor_val_two]
    show r.val = r.val * 1 + 0
    omega)).trans ?_
  rw [hostDivf_apply, maximumf_apply, ones_apply, scatter1_eq, RowOps.scatterAdd1_apply, zeros_apply, zero_add]
  have hsum : (∑ e ∈ Finset.univ.filter (fun e : Fin 640000 => (dstCol m c (ix2 e 0)).toInt = (r.val : Int)),
      ones S640000 bcast_S_S640000 (ix1 e)) = Sage.degN (Sage.rowOf (arg2 m c) h2) r.val := by
    unfold Sage.degN
    refine Finset.sum_congr (Finset.filter_congr fun e _ => ?_) fun e _ => ones_apply _ _ _
    rw [dstCol_apply, ← Sage.rowOf_val (arg2 m c) h2 e]
    exact Nat.cast_inj
  rw [hsum]
  rfl

abbrev wrap (v : IVec S640000 32) : IVec S640000 32 :=
  select (cmpi .slt v (broadcastInDim S640000 ![] bcast_S_S640000 (constantI S_ 32 0#32)))
    (addi v (broadcastInDim S640000 ![] bcast_S_S640000 (constantI S_ 32 10240#32))) v

theorem wrap_apply (v : IVec S640000 32) (i : S640000.Idx) (h : 0 ≤ (v i).toInt) : wrap v i = v i := by
  have hs : (v i).slt 0#32 = false := by
    rw [BitVec.slt]
    simp only [BitVec.toInt_zero, decide_eq_false_iff_not, not_lt]
    exact h
  show Scalar.select (BitVec.ofBool ((v i).slt 0#32)) _ _ = _
  rw [hs]
  exact select_zero _ _

abbrev pairs : IVec S640000x2 32 :=
  concatenate S640000x2 1
    [⟨S640000x1, (broadcastInDim S640000x1 ![0] bcast_S640000_S640000x1_0 (wrap (arg2 m c)) : IVec S640000x1 32)⟩,
     ⟨S640000x1, (broadcastInDim S640000x1 ![0] bcast_S640000_S640000x1_0 (wrap (arg1 m c)) : IVec S640000x1 32)⟩]
    concatenates_S640000x1_S640000x1_S640000x2_d1

theorem pairs_dst (e : Fin 640000) : pairs m c (ix2 e 0) = wrap (arg2 m c) (ix1 e) := by
  refine (concatenate_pair_apply_left (t := S640000x2) (s₁ := S640000x1) (s₂ := S640000x1) (1 : Fin 2) _ _ _ (ix2 e (0 : Fin 2)) rfl (ix2 e (0 : Fin 1)) fun b => ?_).trans ?_
  · match b with
    | ⟨0, _⟩ => rfl
    | ⟨1, _⟩ => rfl
  · exact broadcastInDim_apply _ _ _ _ (ix1 e) fun a => match a with | ⟨0, _⟩ => rfl

theorem pairs_src (e : Fin 640000) : pairs m c (ix2 e 1) = wrap (arg1 m c) (ix1 e) := by
  refine (concatenate_pair_apply_right (t := S640000x2) (s₁ := S640000x1) (s₂ := S640000x1) (1 : Fin 2) _ _ _ (ix2 e (1 : Fin 2)) rfl rfl (ix2 e (0 : Fin 1)) (fun b hb => ?_) rfl).trans ?_
  · match b with
    | ⟨0, _⟩ => rfl
    | ⟨1, _⟩ => exact absurd rfl hb
  · exact broadcastInDim_apply _ _ _ _ (ix1 e) fun a => match a with | ⟨0, _⟩ => rfl

abbrev countsTerm : S10240x10240.Idx → EReal :=
  Host.scatterAdd (F := Ideal) (φ := .f32) scatter_S10240x10240_S640000x2_S640000_n_01_01_1
    (zeros S10240x10240 bcast_S_S10240x10240) (pairs m c) (ones S640000 bcast_S_S640000)

theorem counts_congr {a b a' b' : IVec S640000x1 32} (ha : a = a') (hb : b = b')
    (x : S10240x10240.Idx → EReal) (u : S640000.Idx → EReal) :
    (truncf (F := Ideal) (φ := .f32) .bf16 (Host.scatterAdd (F := Ideal) (φ := .f32) scatter_S10240x10240_S640000x2_S640000_n_01_01_1 x
        (concatenate S640000x2 1 [⟨S640000x1, a⟩, ⟨S640000x1, b⟩] concatenates_S640000x1_S640000x1_S640000x2_d1) u)
        bitsLt_bf16_f32 : S10240x10240.Idx → EReal)
      = Host.scatterAdd (F := Ideal) (φ := .f32) scatter_S10240x10240_S640000x2_S640000_n_01_01_1 x
        (concatenate S640000x2 1 [⟨S640000x1, a'⟩, ⟨S640000x1, b'⟩] concatenates_S640000x1_S640000x1_S640000x2_d1) u := by
  subst ha hb
  rfl

theorem V3_v25_term : (V3 m c main_v25 : S10240x10240.Idx → EReal) = countsTerm m c := by
  have h25 : V3 m c main_v25 = V1 m c main_v25 := (V3_of m c main_v25 (by decide)).trans (V2_of m c main_v25 (by decide))
  rw [h25]
  show StableHlo.after hostOps0 (V0 m c) (Proc.devRef .tc main_v25) = _
  after_results_simp
  refine counts_congr ?_ ?_ _ _
  · after_results_simp
  · after_results_simp

theorem scatter2_eq : scatter_S10240x10240_S640000x2_S640000_n_01_01_1
    = RowOps.scatterDims2 10240 10240 640000 scatter_S10240x10240_S640000x2_S640000_n_01_01_1_wf := rfl

-- The count matrix the host builds: a scatter-add of ones at (destination, source), zero on the padding.
theorem V3_v25 (h1 : ∀ i, 0 ≤ (arg1 m c i).toInt ∧ (arg1 m c i).toInt < 10000)
    (h2 : ∀ i, 0 ≤ (arg2 m c i).toInt ∧ (arg2 m c i).toInt < 10000) (r s : Fin 10240) :
    (V3 m c main_v25 : S10240x10240.Idx → EReal) (ix2 r s)
      = Sage.cnt (Sage.rowOf (arg1 m c) h1) (Sage.rowOf (arg2 m c) h2) r.val s.val := by
  rw [V3_v25_term]
  show Host.scatterAdd (F := Ideal) (φ := .f32) scatter_S10240x10240_S640000x2_S640000_n_01_01_1
    (zeros S10240x10240 bcast_S_S10240x10240) (pairs m c) (ones S640000 bcast_S_S640000) (ix2 r s) = _
  rw [scatter2_eq, RowOps.scatterAdd2_apply, zeros_apply, zero_add]
  unfold Sage.cnt
  refine Finset.sum_congr (Finset.filter_congr fun e _ => ?_) fun e _ => ones_apply _ _ _
  rw [pairs_dst, pairs_src, wrap_apply _ _ (h2 _).1, wrap_apply _ _ (h1 _).1,
    ← Sage.rowOf_val (arg2 m c) h2 e, ← Sage.rowOf_val (arg1 m c) h1 e, Nat.cast_inj, Nat.cast_inj]

end Cert.KernelIdeal.HostValue

end
-- ==== Proof.Algebra.lean ====
import proofs.«404208_j53145925321203_2_alg».proof.Proof.Spec
import Mathlib.Data.EReal.Basic
import Mathlib.Data.EReal.Operations
import Mathlib.Data.EReal.Inv
import Mathlib.Algebra.BigOperators.Fin
import Mathlib.Algebra.BigOperators.Group.Finset.Basic
import Mathlib.Algebra.BigOperators.Ring.Finset

noncomputable section

open scoped BigOperators

namespace Sage

open Idealize.ShloMosaic

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

variable (sidx didx : Fin 640000 → Fin 10000)

theorem degN_eq (r : Fin 10000) : degN didx r.val = deg didx r := by
  simp only [degN, deg, Fin.val_inj]

def cntR (r s : ℕ) : ℝ :=
  ∑ _e ∈ Finset.univ.filter (fun e => (didx e).val = r ∧ (sidx e).val = s), (1 : ℝ)

theorem cnt_eq_coe (r s : ℕ) : cnt sidx didx r s = (cntR sidx didx r s : EReal) := by
  rw [cnt, cntR, coe_sum]
  rfl

theorem cnt_eq_zero (r s : ℕ) (hs : 10000 ≤ s) : cnt sidx didx r s = 0 := by
  rw [cnt, Finset.filter_eq_empty_iff.mpr, Finset.sum_empty]
  intro e _ he
  have := (sidx e).isLt
  omega

theorem max_deg_one (r : Fin 10000) : ∃ m : ℝ, m ≠ 0 ∧ max (deg didx r) 1 = (m : EReal) := by
  refine ⟨max (∑ _e ∈ Finset.univ.filter (fun e => didx e = r), (1 : ℝ)) 1, ?_, ?_⟩
  · have : (1 : ℝ) ≤ max (∑ _e ∈ Finset.univ.filter (fun e => didx e = r), (1 : ℝ)) 1 := le_max_right _ _
    intro h0
    rw [h0] at this
    exact absurd this (by norm_num)
  · rw [coe_max, coe_sum, deg]
    rfl

-- The degree, at least 1, is a nonzero real: dividing by it is multiplying by its reciprocal.
theorem mul_invdeg (x : EReal) (r : Fin 10000) :
    x * invdeg didx r.val = Ideal.div x (max (deg didx r) 1) := by
  obtain ⟨m, hm, hme⟩ := max_deg_one didx r
  rw [invdeg, degN_eq, hme, Ideal.div_coe hm, Ideal.div_coe hm, one_mul]

theorem acc_eq_coe_sum_range (A : ℕ → ℕ → EReal) (H : ℕ → Fin 128 → EReal) (r : ℕ) (k : Fin 128) (g : ℕ → ℝ)
    (hg : ∀ s, A r s * H s k = (g s : EReal)) (n : ℕ) :
    acc A H r k n = ((∑ i ∈ Finset.range (2048 * n), g i : ℝ) : EReal) := by
  induction n with
  | zero => simp [acc]
  | succ n ih =>
    have hblk : (∑ s : Fin 2048, A r (2048 * n + s.val) * H (2048 * n + s.val) k)
        = ((∑ x ∈ Finset.range 2048, g (2048 * n + x) : ℝ) : EReal) := by
      rw [Finset.sum_range (fun x => g (2048 * n + x)), coe_sum]
      exact Finset.sum_congr rfl (fun s _ => hg (2048 * n + s.val))
    rw [acc, ih, hblk, ← EReal.coe_add, Nat.mul_succ, Finset.sum_range_add]

theorem sum_cntR_mul (hr : Fin 10000 → ℝ) (r : Fin 10000) :
    ∑ s : Fin 10000, cntR sidx didx r.val s.val * hr s
      = ∑ e ∈ Finset.univ.filter (fun e => didx e = r), hr (sidx e) := by
  rw [← Finset.sum_fiberwise (Finset.univ.filter (fun e => didx e = r)) sidx (fun e => hr (sidx e))]
  refine Finset.sum_congr rfl (fun s _ => ?_)
  rw [cntR, Finset.sum_mul, Finset.filter_filter]
  refine Finset.sum_congr ?_ ?_
  · ext e
    simp only [Finset.mem_filter, Finset.mem_univ, true_and, Fin.val_inj]
  · intro e he
    rw [one_mul, (Finset.mem_filter.mp he).2.2]

-- Summing counts × features over the source nodes regroups the sum over the edges by their source: finiteness lets the sums be exchanged.
theorem acc_cnt_eq_agg (h : Fin 10000 → Fin 128 → EReal) (hfin : ∀ r k, ∃ x : ℝ, h r k = (x : EReal))
    (H : ℕ → Fin 128 → EReal) (hH : ∀ (r : Fin 10000) k, H r.val k = h r k) (r : Fin 10000) (k : Fin 128) :
    acc (cnt sidx didx) H r.val k 5 = agg sidx didx h r k := by
  choose hr hhr using hfin

  let g : ℕ → ℝ := fun s => if hs : s < 10000 then cntR sidx didx r.val s * hr ⟨s, hs⟩ k else 0
  have hg : ∀ s, cnt sidx didx r.val s * H s k = (g s : EReal) := by
    intro s
    by_cases hs : s < 10000
    · have hHs : H s k = (hr ⟨s, hs⟩ k : EReal) := by rw [← hhr]; exact hH ⟨s, hs⟩ k
      simp only [g, dif_pos hs]
      rw [cnt_eq_coe, hHs, EReal.coe_mul]
    · simp only [g, dif_neg hs]
      rw [cnt_eq_zero sidx didx _ _ (by omega), zero_mul, EReal.coe_zero]
  have hagg : agg sidx didx h r k
      = ((∑ e ∈ Finset.univ.filter (fun e => didx e = r), hr (sidx e) k : ℝ) : EReal) := by
    rw [agg, coe_sum]
    exact Finset.sum_congr rfl (fun e _ => hhr _ _)
  rw [acc_eq_coe_sum_range _ _ _ _ g hg 5, hagg, ← sum_cntR_mul sidx didx (fun s => hr s k) r]
  refine congrArg Real.toEReal ?_

  have hsub : Finset.range 10000 ⊆ Finset.range (2048 * 5) := by
    intro i hi
    rw [Finset.mem_range] at hi ⊢
    omega
  rw [← Finset.sum_subset hsub, Finset.sum_range]
  · refine Finset.sum_congr rfl (fun s _ => ?_)
    simp only [g, dif_pos s.isLt]
  · intro i _ hi
    rw [Finset.mem_range] at hi
    simp only [g, dif_neg hi]

-- So a round from the counts is the round edge by edge.
theorem klayer_eq_layer (h : Fin 10000 → Fin 128 → EReal) (hfin : ∀ r k, ∃ x : ℝ, h r k = (x : EReal))
    (H : ℕ → Fin 128 → EReal) (hH : ∀ (r : Fin 10000) k, H r.val k = h r k)
    (Ws Wn : Fin 128 → Fin 128 → EReal) (b : Fin 128 → EReal) (r : Fin 10000) (p : Fin 128) :
    klayer (cnt sidx didx) H (fun k p => Ws p k) (fun k p => Wn p k) b (invdeg didx) r.val p
      = layer sidx didx h Ws Wn b r p := by
  have h1 : ∀ k, H r.val k = h r k := hH r
  have h2 : ∀ k, acc (cnt sidx didx) H r.val k 5 * invdeg didx r.val
      = Ideal.div (agg sidx didx h r k) (max (deg didx r) 1) := fun k => by
    rw [acc_cnt_eq_agg sidx didx h hfin H hH, mul_invdeg]
  simp only [klayer, layer, h1, h2]

-- A round of finite data is finite: the second round's features are reals again.
theorem layer_finite (h : Fin 10000 → Fin 128 → EReal) (hfin : ∀ r k, ∃ x : ℝ, h r k = (x : EReal))
    (Ws Wn : Fin 128 → Fin 128 → EReal) (b : Fin 128 → EReal)
    (hWs : ∀ p k, ∃ x : ℝ, Ws p k = (x : EReal)) (hWn : ∀ p k, ∃ x : ℝ, Wn p k = (x : EReal))
    (hb : ∀ p, ∃ x : ℝ, b p = (x : EReal)) :
    ∀ r p, ∃ x : ℝ, layer sidx didx h Ws Wn b r p = (x : EReal) := by
  choose hr hhr using hfin
  choose ws hws using hWs
  choose wn hwn using hWn
  choose bb hbb using hb
  intro r p
  obtain ⟨m, hm, hme⟩ := max_deg_one didx r
  have e1 : (∑ k, h r k * Ws p k) = ((∑ k, hr r k * ws p k : ℝ) : EReal) := by
    rw [coe_sum]
    exact Finset.sum_congr rfl (fun k _ => by rw [hhr, hws, EReal.coe_mul])
  have e2 : (∑ k, Ideal.div (agg sidx didx h r k) (max (deg didx r) 1) * Wn p k)
      = ((∑ k, (∑ e ∈ Finset.univ.filter (fun e => didx e = r), hr (sidx e) k) * (1 / m) * wn p k : ℝ) : EReal) := by
    rw [coe_sum]
    refine Finset.sum_congr rfl (fun k _ => ?_)
    have hagg : agg sidx didx h r k
        = ((∑ e ∈ Finset.univ.filter (fun e => didx e = r), hr (sidx e) k : ℝ) : EReal) := by
      rw [agg, coe_sum]
      exact Finset.sum_congr rfl (fun e _ => hhr _ _)
    rw [hme, Ideal.div_coe hm, hagg, hwn, EReal.coe_mul, EReal.coe_mul]
  refine ⟨max ((∑ k, hr r k * ws p k)
    + (∑ k, (∑ e ∈ Finset.univ.filter (fun e => didx e = r), hr (sidx e) k) * (1 / m) * wn p k) + bb p) 0, ?_⟩
  rw [coe_max, EReal.coe_add, EReal.coe_add, EReal.coe_zero, ← e1, ← e2, ← hbb]
  rfl

theorem knet_eq_net (x : Fin 10000 → Fin 128 → EReal) (hx : ∀ r k, ∃ y : ℝ, x r k = (y : EReal))
    (W1s W1n : Fin 128 → Fin 128 → EReal) (b1 : Fin 128 → EReal)
    (W2s W2n : Fin 128 → Fin 128 → EReal) (b2 : Fin 128 → EReal)
    (hW1s : ∀ p k, ∃ y : ℝ, W1s p k = (y : EReal)) (hW1n : ∀ p k, ∃ y : ℝ, W1n p k = (y : EReal))
    (hb1 : ∀ p, ∃ y : ℝ, b1 p = (y : EReal))
    (H1 H2 : ℕ → Fin 128 → EReal) (hH1 : ∀ (r : Fin 10000) k, H1 r.val k = x r k)
    (hH2 : ∀ (r : ℕ) k, r < 10000 →
      H2 r k = klayer (cnt sidx didx) H1 (fun k p => W1s p k) (fun k p => W1n p k) b1 (invdeg didx) r k)
    (r : Fin 10000) (p : Fin 128) :
    klayer (cnt sidx didx) H2 (fun k p => W2s p k) (fun k p => W2n p k) b2 (invdeg didx) r.val p
      = net sidx didx x W1s W1n b1 W2s W2n b2 r p := by
  have hmid : ∀ (r : Fin 10000) k, H2 r.val k = layer sidx didx x W1s W1n b1 r k := fun r k => by
    rw [hH2 r.val k r.isLt, klayer_eq_layer sidx didx x hx H1 hH1]
  exact klayer_eq_layer sidx didx (layer sidx didx x W1s W1n b1)
    (layer_finite sidx didx x hx W1s W1n b1 hW1s hW1n hb1) H2 hmid W2s W2n b2 r p

end Sage

end
-- ==== Proof.AlgebraCongr.lean ====
import proofs.«404208_j53145925321203_2_alg».proof.Proof.Spec
import Mathlib.Algebra.BigOperators.Group.Finset.Basic

noncomputable section

open scoped BigOperators

namespace Sage

open Idealize.ShloMosaic

-- Five blocks of 2048 read only the columns below 10240.
theorem acc_congr {A A' : ℕ → ℕ → EReal} {H H' : ℕ → Fin 128 → EReal} (r : ℕ) (k : Fin 128)
    (hA : ∀ s, s < 10240 → A r s = A' r s) (hH : ∀ s, s < 10240 → H s k = H' s k) :
    ∀ n, n ≤ 5 → acc A H r k n = acc A' H' r k n := by
  intro n
  induction n with
  | zero =>
    intro _
    rw [acc, acc]
  | succ n ih =>
    intro hn

    have hblk : (∑ s : Fin 2048, A r (2048 * n + s.val) * H (2048 * n + s.val) k)
        = ∑ s : Fin 2048, A' r (2048 * n + s.val) * H' (2048 * n + s.val) k := by
      refine Finset.sum_congr rfl (fun s _ => ?_)
      have hs : 2048 * n + s.val < 10240 := by
        have := s.isLt
        omega
      rw [hA _ hs, hH _ hs]
    rw [acc, acc, ih (by omega), hblk]

theorem klayer_congr {A A' : ℕ → ℕ → EReal} {H H' : ℕ → Fin 128 → EReal} (WsT WnT : Fin 128 → Fin 128 → EReal)
    (b : Fin 128 → EReal) {inv inv' : ℕ → EReal} (r : ℕ) (hr : r < 10240) (p : Fin 128)
    (hA : ∀ s, s < 10240 → A r s = A' r s) (hH : ∀ s, s < 10240 → ∀ k, H s k = H' s k)
    (hinv : inv r = inv' r) :
    klayer A H WsT WnT b inv r p = klayer A' H' WsT WnT b inv' r p := by
  have h1 : ∀ k, H r k = H' r k := hH r hr
  have h2 : ∀ k, acc A H r k 5 = acc A' H' r k 5 := fun k =>
    acc_congr r k hA (fun s hs => hH s hs k) 5 le_rfl
  simp only [klayer, h1, h2, hinv]

end Sage

end
-- ==== Proof.KernelValue.lean ====
import proofs.«404208_j53145925321203_2_alg».proof.Proof.KI.Regs
import proofs.«404208_j53145925321203_2_alg».proof.Proof.KI.Value0c
import proofs.«404208_j53145925321203_2_alg».proof.Proof.KI.Value1c
import proofs.«404208_j53145925321203_2_alg».proof.Proof.KHost
import proofs.«404208_j53145925321203_2_alg».proof.Proof.Algebra
import proofs.«404208_j53145925321203_2_alg».proof.Proof.AlgebraCongr
import proofs.«404208_j53145925321203_2_alg».proof.Proof.SpecExt

set_option maxRecDepth 16384

noncomputable section

namespace Cert.KernelIdeal.Result

open Cert.KernelIdeal Cert.KernelIdeal.Gen Cert.KernelIdeal.Fr Cert.KernelIdeal.HostValue
open Idealize.ShloMosaic Idealize.ShloMosaic.TcCoe Idealize.ShloMosaic.ValueIdx Idealize.SL.Sem

variable (m : (ℓ : Loc nD τ sig) → Buf (Elt Ideal) ℓ) (c : Dev nD)
  (h1 : ∀ i, 0 ≤ (arg1 m c i).toInt ∧ (arg1 m c i).toInt < 10000)
  (h2 : ∀ i, 0 ≤ (arg2 m c i).toInt ∧ (arg2 m c i).toInt < 10000)

-- Region 0's output, row by row: the first round from the counts over the padded input.
theorem out33_apply (R : Fin 10240) (p : Fin 128) :
    (out33 m c : S10240x128.Idx → EReal) (ix2 R p)
      = Sage.klayer (Sage.cnt (Sage.rowOf (arg1 m c) h1) (Sage.rowOf (arg2 m c) h2))
          (Sage.extRow (V3 m c main_v27 : S10240x128.Idx → EReal))
          (fun k p => arg3 m c (ix2 p k)) (fun k p => arg4 m c (ix2 p k)) (fun p => arg5 m c (ix1 p))
          (Sage.invdeg (Sage.rowOf (arg2 m c) h2)) R.val p := by
  unfold out33
  rw [arrAt0_apply (Vr3 m) c R p]
  have hWs : (fun k p => (Vr3 m c main_v29 : S128x128.Idx → EReal) (ix2 k p)) = fun k p => arg3 m c (ix2 p k) :=
    funext fun k => funext fun p => V3_v29 m c k p
  have hWn : (fun k p => (Vr3 m c main_v31 : S128x128.Idx → EReal) (ix2 k p)) = fun k p => arg4 m c (ix2 p k) :=
    funext fun k => funext fun p => V3_v31 m c k p
  have hb : (fun p => (Vr3 m c main_v32 : S1x128.Idx → EReal) (ix2 0 p)) = fun p => arg5 m c (ix1 p) :=
    funext fun p => V3_v32 m c p
  rw [hWs, hWn, hb]
  refine Sage.klayer_congr _ _ _ R.val R.isLt p (fun s hs => ?_) (fun s hs k => rfl) ?_
  · rw [Sage.ext2_of_lt _ _ _ R.isLt hs]
    exact V3_v25 m c h1 h2 R ⟨s, hs⟩
  · rw [Sage.extCol_of_lt _ _ R.isLt]
    exact V3_v8 m c h2 R

-- The kernel program's result: two rounds from the counts, hence two rounds edge by edge; region 1 reads region 0's padding rows only against zero counts.
theorem result_apply (hx : ∀ i, ∃ y : ℝ, arg0 m c i = (y : EReal)) (hW1s : ∀ i, ∃ y : ℝ, arg3 m c i = (y : EReal))
    (hW1n : ∀ i, ∃ y : ℝ, arg4 m c i = (y : EReal)) (hb1 : ∀ i, ∃ y : ℝ, arg5 m c i = (y : EReal))
    (r : Fin 10000) (p : Fin 128) :
    (V7 m (outsB m) c main_v40 : S10000x128.Idx → EReal) (ix2 r p)
      = Sage.net (Sage.rowOf (arg1 m c) h1) (Sage.rowOf (arg2 m c) h2) (fun r k => arg0 m c (ix2 r k))
          (fun p k => arg3 m c (ix2 p k)) (fun p k => arg4 m c (ix2 p k)) (fun p => arg5 m c (ix1 p))
          (fun p k => arg6 m c (ix2 p k)) (fun p k => arg7 m c (ix2 p k)) (fun p => arg8 m c (ix1 p)) r p := by
  have hR : r.val < 10240 := by have := r.isLt; omega
  rw [V7_v40 m (outsB m) c r p, outsB_39]
  unfold out39
  rw [R1.arrAt1_apply (Vr5 m) c ⟨r.val, hR⟩ p]
  have hWs : (fun k p => (Vr5 m c main_v35 : S128x128.Idx → EReal) (ix2 k p)) = fun k p => arg6 m c (ix2 p k) :=
    funext fun k => funext fun p => V5_v35 m (outsA m) c k p
  have hWn : (fun k p => (Vr5 m c main_v37 : S128x128.Idx → EReal) (ix2 k p)) = fun k p => arg7 m c (ix2 p k) :=
    funext fun k => funext fun p => V5_v37 m (outsA m) c k p
  have hb : (fun p => (Vr5 m c main_v38 : S1x128.Idx → EReal) (ix2 0 p)) = fun p => arg8 m c (ix1 p) :=
    funext fun p => V5_v38 m (outsA m) c p
  rw [hWs, hWn, hb]
  have h33 : (Vr5 m c main_v33 : S10240x128.Idx → EReal) = out33 m c := (V5_v33 m (outsA m) c).trans (outsA_33 m 4 c)
  have h25 : (Vr5 m c main_v25 : S10240x10240.Idx → EReal) = V3 m c main_v25 := V5_v25 m (outsA m) c
  have h8 : (Vr5 m c main_v8 : S10240x1.Idx → EReal) = V3 m c main_v8 := V5_v8 m (outsA m) c
  rw [h33, h25, h8]
  refine (Sage.klayer_congr (A' := Sage.cnt (Sage.rowOf (arg1 m c) h1) (Sage.rowOf (arg2 m c) h2))
      (H' := Sage.extRow (out33 m c : S10240x128.Idx → EReal)) (inv' := Sage.invdeg (Sage.rowOf (arg2 m c) h2))
      _ _ _ r.val hR p (fun s hs => ?_) (fun s hs k => rfl) ?_).trans ?_
  · rw [Sage.ext2_of_lt _ _ _ hR hs]
    exact V3_v25 m c h1 h2 ⟨r.val, hR⟩ ⟨s, hs⟩
  · rw [Sage.extCol_of_lt _ _ hR]
    exact V3_v8 m c h2 ⟨r.val, hR⟩
  · exact Sage.knet_eq_net (Sage.rowOf (arg1 m c) h1) (Sage.rowOf (arg2 m c) h2) (fun r k => arg0 m c (ix2 r k))
      (fun r k => hx _) (fun p k => arg3 m c (ix2 p k)) (fun p k => arg4 m c (ix2 p k)) (fun p => arg5 m c (ix1 p))
      (fun p k => arg6 m c (ix2 p k)) (fun p k => arg7 m c (ix2 p k)) (fun p => arg8 m c (ix1 p))
      (fun p k => hW1s _) (fun p k => hW1n _) (fun p => hb1 _)
      (Sage.extRow (V3 m c main_v27 : S10240x128.Idx → EReal)) (Sage.extRow (out33 m c : S10240x128.Idx → EReal))
      (fun r' k => by
        have hr' : r'.val < 10240 := by have := r'.isLt; omega
        rw [Sage.extRow_of_lt _ _ _ hr', V3_v27 m c ⟨r'.val, hr'⟩ k, dif_pos r'.isLt])
      (fun r' k hr' => by
        have hr'' : r' < 10240 := by omega
        rw [Sage.extRow_of_lt _ _ _ hr'']
        exact out33_apply m c h1 h2 ⟨r', hr''⟩ k)
      r p

end Cert.KernelIdeal.Result

end
-- ==== Proof.LibRowOps.lean ====
import Idealize.ShloMosaic.PureOps.Ideal
import Idealize.ShloMosaic.Lib.ValueIdx

noncomputable section

open scoped BigOperators

namespace RowOps

open Idealize.ShloMosaic Idealize.ShloMosaic.ValueIdx

section Gather
variable {α : Type}

abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

def clampRow {w : Nat} (N : Nat) (hN : 0 < N) (b : BitVec w) : Fin N := ⟨min b.toInt.toNat (N - 1), by omega⟩

-- A row gather read at an index: the row the (clamped) index names.
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

end Gather

section Scatter

abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]

theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]

theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

-- A scatter-add of rows read at an index: the operand plus the update rows whose index lands on that row.
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

end RowOps

end
-- ==== Proof.RefValue.lean ====
import proofs.«404208_j53145925321203_2_alg».proof.Proof.Gen.ReferenceIdeal.Run
import proofs.«404208_j53145925321203_2_alg».proof.Proof.Gen.ReferenceIdeal.Read
import proofs.«404208_j53145925321203_2_alg».proof.Proof.Spec
import proofs.«404208_j53145925321203_2_alg».proof.Proof.LibRowOps
import proofs.«404208_j53145925321203_2_alg».proof.Proof.LibScatter

noncomputable section

open scoped BigOperators

namespace Cert.ReferenceIdeal.RefValue

open Cert.ReferenceIdeal Idealize.ShloMosaic Idealize.ShloMosaic.ValueIdx

theorem ofBits_one_f32 : Ideal.ofBits .f32 0x3F800000#32 = 1 := by
  simp [Ideal.ofBits, Ideal.ieee, -EReal.coe_mul]; norm_num

theorem wrap_of_nonneg (a alt : BitVec 32) (h : 0 ≤ a.toInt) :
    Scalar.select (IntOp.cmpi .slt a 0#32) alt a = a := by
  have hs : a.slt 0#32 = false := by
    simpa [BitVec.slt] using h
  have hc : IntOp.cmpi .slt a 0#32 = 0#1 := by
    show BitVec.ofBool (a.slt 0#32) = 0#1
    rw [hs]; rfl
  rw [hc, select_zero]

theorem clampRow_eq (a : BitVec 32) (s : Fin 10000) (hN : 0 < 10000) (h : a.toInt = (s.val : Int)) :
    RowOps.clampRow 10000 hN a = s := by
  refine Fin.ext ?_
  show min a.toInt.toNat (10000 - 1) = s.val
  have := s.isLt
  omega

theorem ext2 {n0 n1 : Nat} {i j : (⟨2, ![n0, n1]⟩ : Shape).Idx} (h0 : i 0 = j 0) (h1 : i 1 = j 1) : i = j := by
  funext a
  match a with
  | ⟨0, _⟩ => exact h0
  | ⟨1, _⟩ => exact h1

theorem ext1 {n : Nat} {i j : (⟨1, ![n]⟩ : Shape).Idx} (h0 : i 0 = j 0) : i = j := by
  funext a
  match a with
  | ⟨0, _⟩ => exact h0

-- The reference's gather then scatter-add, read at an index: the sum over the edges into the node of the source's features.
theorem agg_apply (sidx didx : Fin 640000 → Fin 10000) (h z : FVec Ideal S10000x128 .f32) (idxS idxD : IVec S640000x1 32)
    (hz : ∀ i, z i = 0)
    (hS : ∀ e : Fin 640000, (idxS (ix2 e 0)).toInt = ((sidx e).val : Int))
    (hD : ∀ e : Fin 640000, (idxD (ix2 e 0)).toInt = ((didx e).val : Int)) (r : Fin 10000) (k : Fin 128) :
    Host.scatterAdd (F := Ideal) scatter_S10000x128_S640000x1_S640000x128_1_0_0_1 z idxD
        (Host.gather gather_S10000x128_S640000x1_S640000x128_1_0_n_n_0_1_1128 h idxS) (ix2 r k)
      = Sage.agg sidx didx (fun r k => h (ix2 r k)) r k := by
  have e1 : Host.scatterAdd (F := Ideal) scatter_S10000x128_S640000x1_S640000x128_1_0_0_1 z idxD
        (Host.gather gather_S10000x128_S640000x1_S640000x128_1_0_n_n_0_1_1128 h idxS) (ix2 r k)
      = Host.scatterAdd (F := Ideal)
          (RowOps.scatterDims 10000 640000 128 Facts₀.scatter_S10000x128_S640000x1_S640000x128_1_0_0_1_wf) z idxD
          (Host.gather (RowOps.gatherDims 10000 640000 128 Facts₀.gather_S10000x128_S640000x1_S640000x128_1_0_n_n_0_1_1128_wf)
            h idxS) (ix2 r k) := rfl
  rw [e1, RowOps.scatterAdd_apply, hz, zero_add]
  unfold Sage.agg
  refine Finset.sum_congr (Finset.filter_congr fun e _ => ?_) fun e _ => ?_
  · rw [hD e]
    exact ⟨fun hh => Fin.ext (by exact_mod_cast hh), fun hh => by rw [hh]⟩
  · rw [RowOps.gather_apply (by decide : 0 < 10000), clampRow_eq _ (sidx e) _ (hS e)]

theorem deg_apply (didx : Fin 640000 → Fin 10000) (z : FVec Ideal S10000 .f32) (one : FVec Ideal S640000 .f32)
    (idxD : IVec S640000x1 32) (hz : ∀ i, z i = 0) (ho : ∀ i, one i = 1)
    (hD : ∀ e : Fin 640000, (idxD (ix2 e 0)).toInt = ((didx e).val : Int)) (r : Fin 10000) :
    Host.scatterAdd (F := Ideal) scatter_S10000_S640000x1_S640000_n_0_0_1 z idxD one (ix1 r) = Sage.deg didx r := by
  have e1 : Host.scatterAdd (F := Ideal) scatter_S10000_S640000x1_S640000_n_0_0_1 z idxD one (ix1 r)
      = Host.scatterAdd (F := Ideal)
          (RowOps.scatterDims1 10000 640000 Facts₀.scatter_S10000_S640000x1_S640000_n_0_0_1_wf) z idxD one (ix1 r) := rfl
  rw [e1, RowOps.scatterAdd1_apply, hz, zero_add]
  unfold Sage.deg
  refine Finset.sum_congr (Finset.filter_congr fun e _ => ?_) fun e _ => ho _
  rw [hD e]
  exact ⟨fun hh => Fin.ext (by exact_mod_cast hh), fun hh => by rw [hh]⟩

section Round1

variable (x0 : FVec Ideal S10000x128 .f32) (x1 x2 : IVec S640000 32) (x3 x4 : FVec Ideal S128x128 .f32)
  (x5 : FVec Ideal S128 .f32)
  (h1 : ∀ i, 0 ≤ (x1 i).toInt ∧ (x1 i).toInt < 10000) (h2 : ∀ i, 0 ≤ (x2 i).toInt ∧ (x2 i).toInt < 10000)

include h1 in

theorem src1 (e : Fin 640000) : Read.val_main_v5 (F := Ideal) x1 (ix2 e 0) = x1 (ix1 e) := by
  rw [Read.val_main_v5_apply, Read.val_main_v4_apply, Read.val_main_v1_apply, Read.val_main_v0_apply,
    Read.val_main_c_apply]
  have hi : Read.idx_main_v5 (ix2 e (0 : Fin 1)) = ix1 e := ext1 rfl
  rw [hi]
  exact wrap_of_nonneg _ _ (h1 _).1

theorem dst1 (e : Fin 640000) : Read.val_main_v8 (F := Ideal) x2 (ix2 e 0) = x2 (ix1 e) := by
  rw [Read.val_main_v8_apply]
  exact congrArg x2 (ext1 rfl)

theorem dst1' (e : Fin 640000) : Read.val_main_v12 (F := Ideal) x2 (ix2 e 0) = x2 (ix1 e) := by
  rw [Read.val_main_v12_apply]
  exact congrArg x2 (ext1 rfl)

theorem agg1 (r : Fin 10000) (k : Fin 128) :
    Read.val_main_v9 (F := Ideal) x0 x1 x2 (ix2 r k)
      = Sage.agg (Sage.rowOf x1 h1) (Sage.rowOf x2 h2) (fun r k => x0 (ix2 r k)) r k := by
  unfold Read.val_main_v9 Read.val_main_v6
  refine agg_apply _ _ x0 _ _ _ (fun i => ?_) (fun e => ?_) (fun e => ?_) r k
  · rw [Read.val_main_v7_apply, Read.val_main_cst_apply, Ideal.ofBits_def, Ideal.ofBits_zero_f32]
  · rw [src1 x1 h1 e, Sage.rowOf_val]
  · rw [dst1 x2 e, Sage.rowOf_val]

theorem deg1 (r : Fin 10000) : Read.val_main_v13 (F := Ideal) x2 (ix1 r) = Sage.deg (Sage.rowOf x2 h2) r := by
  unfold Read.val_main_v13
  refine deg_apply _ _ _ _ (fun i => ?_) (fun i => ?_) (fun e => ?_) r
  · rw [Read.val_main_v11_apply, Read.val_main_cst_2_apply, Ideal.ofBits_def, Ideal.ofBits_zero_f32]
  · rw [Read.val_main_v10_apply, Read.val_main_cst_1_apply, Ideal.ofBits_def, ofBits_one_f32]
  · rw [dst1' x2 e, Sage.rowOf_val]

theorem mean1 (r : Fin 10000) (k : Fin 128) :
    Read.val_main_v18 (F := Ideal) x0 x1 x2 (ix2 r k)
      = Ideal.div (Sage.agg (Sage.rowOf x1 h1) (Sage.rowOf x2 h2) (fun r k => x0 (ix2 r k)) r k)
          (max (Sage.deg (Sage.rowOf x2 h2) r) 1) := by
  rw [Read.val_main_v18_apply, Ideal.hostDivf_def, agg1 x0 x1 x2 h1 h2, Read.val_main_v17_apply, Read.val_main_v16_apply,
    Read.val_main_v15_apply, Ideal.maximumf_def, Read.val_main_v14_apply, Read.val_main_cst_3_apply, Ideal.ofBits_def,
    ofBits_one_f32]
  have hi : Read.idx_main_v16 (Read.idx_main_v17 (ix2 r k)) = ix1 r := ext1 rfl
  rw [hi, deg1 x2 h2]

theorem layer1 (r : Fin 10000) (p : Fin 128) :
    Read.val_main_v27 (F := Ideal) x0 x1 x2 x3 x4 x5 (ix2 r p)
      = Sage.layer (Sage.rowOf x1 h1) (Sage.rowOf x2 h2) (fun r k => x0 (ix2 r k)) (fun p k => x3 (ix2 p k))
          (fun p k => x4 (ix2 p k)) (fun p => x5 (ix1 p)) r p := by
  rw [Read.val_main_v27_apply, Ideal.maximumf_def, Read.val_main_call0_v0_apply, Read.val_main_call0_cst_apply,
    Ideal.ofBits_def, Ideal.ofBits_zero_f32, Read.val_main_v26_apply, Ideal.addf_def, Read.val_main_v23_apply,
    Ideal.addf_def, Read.val_main_v20_apply, Read.val_main_v22_apply, Read.val_main_v25_apply, Read.val_main_v24_apply]
  have hb : Read.idx_main_v24 (Read.idx_main_v25 (ix2 r p)) = ix1 p := ext1 rfl
  have hs : ∀ k : Fin 128, x0 (Read.lidx_main_v20 (ix2 r p) k)
      * Read.val_main_v19 (F := Ideal) x3 (Read.ridx_main_v20 (ix2 r p) k) = x0 (ix2 r k) * x3 (ix2 p k) := by
    intro k
    have a1 : Read.lidx_main_v20 (ix2 r p) k = ix2 r k := ext2 rfl rfl
    have a2 : Read.idx_main_v19 (Read.ridx_main_v20 (ix2 r p) k) = ix2 p k := ext2 rfl rfl
    rw [Read.val_main_v19_apply, a1, a2]
  have hn : ∀ k : Fin 128, Read.val_main_v18 (F := Ideal) x0 x1 x2 (Read.lidx_main_v22 (ix2 r p) k)
      * Read.val_main_v21 (F := Ideal) x4 (Read.ridx_main_v22 (ix2 r p) k)
      = Ideal.div (Sage.agg (Sage.rowOf x1 h1) (Sage.rowOf x2 h2) (fun r k => x0 (ix2 r k)) r k)
          (max (Sage.deg (Sage.rowOf x2 h2) r) 1) * x4 (ix2 p k) := by
    intro k
    have a1 : Read.lidx_main_v22 (ix2 r p) k = ix2 r k := ext2 rfl rfl
    have a2 : Read.idx_main_v21 (Read.ridx_main_v22 (ix2 r p) k) = ix2 p k := ext2 rfl rfl
    rw [Read.val_main_v21_apply, a1, a2, mean1 x0 x1 x2 h1 h2]
  rw [Finset.sum_congr rfl (fun k _ => hs k), Finset.sum_congr rfl (fun k _ => hn k), hb]
  rfl

end Round1

section Round2

variable (x0 : FVec Ideal S10000x128 .f32) (x1 x2 : IVec S640000 32) (x3 x4 : FVec Ideal S128x128 .f32)
  (x5 : FVec Ideal S128 .f32) (x6 x7 : FVec Ideal S128x128 .f32) (x8 : FVec Ideal S128 .f32)
  (h1 : ∀ i, 0 ≤ (x1 i).toInt ∧ (x1 i).toInt < 10000) (h2 : ∀ i, 0 ≤ (x2 i).toInt ∧ (x2 i).toInt < 10000)

include h1 in

theorem src2 (e : Fin 640000) : Read.val_main_v33 (F := Ideal) x1 (ix2 e 0) = x1 (ix1 e) := by
  rw [Read.val_main_v33_apply, Read.val_main_v32_apply, Read.val_main_v29_apply, Read.val_main_v28_apply,
    Read.val_main_c_4_apply]
  have hi : Read.idx_main_v33 (ix2 e (0 : Fin 1)) = ix1 e := ext1 rfl
  rw [hi]
  exact wrap_of_nonneg _ _ (h1 _).1

theorem dst2 (e : Fin 640000) : Read.val_main_v36 (F := Ideal) x2 (ix2 e 0) = x2 (ix1 e) := by
  rw [Read.val_main_v36_apply]
  exact congrArg x2 (ext1 rfl)

theorem dst2' (e : Fin 640000) : Read.val_main_v40 (F := Ideal) x2 (ix2 e 0) = x2 (ix1 e) := by
  rw [Read.val_main_v40_apply]
  exact congrArg x2 (ext1 rfl)

theorem agg2 (r : Fin 10000) (k : Fin 128) :
    Read.val_main_v37 (F := Ideal) x0 x1 x2 x3 x4 x5 (ix2 r k)
      = Sage.agg (Sage.rowOf x1 h1) (Sage.rowOf x2 h2)
          (fun r k => Read.val_main_v27 (F := Ideal) x0 x1 x2 x3 x4 x5 (ix2 r k)) r k := by
  unfold Read.val_main_v37 Read.val_main_v34
  refine agg_apply _ _ (Read.val_main_v27 (F := Ideal) x0 x1 x2 x3 x4 x5) _ _ _ (fun i => ?_) (fun e => ?_) (fun e => ?_) r k
  · rw [Read.val_main_v35_apply, Read.val_main_cst_6_apply, Ideal.ofBits_def, Ideal.ofBits_zero_f32]
  · rw [src2 x1 h1 e, Sage.rowOf_val]
  · rw [dst2 x2 e, Sage.rowOf_val]

theorem deg2 (r : Fin 10000) : Read.val_main_v41 (F := Ideal) x2 (ix1 r) = Sage.deg (Sage.rowOf x2 h2) r := by
  unfold Read.val_main_v41
  refine deg_apply _ _ _ _ (fun i => ?_) (fun i => ?_) (fun e => ?_) r
  · rw [Read.val_main_v39_apply, Read.val_main_cst_8_apply, Ideal.ofBits_def, Ideal.ofBits_zero_f32]
  · rw [Read.val_main_v38_apply, Read.val_main_cst_7_apply, Ideal.ofBits_def, ofBits_one_f32]
  · rw [dst2' x2 e, Sage.rowOf_val]

theorem mean2 (r : Fin 10000) (k : Fin 128) :
    Read.val_main_v46 (F := Ideal) x0 x1 x2 x3 x4 x5 (ix2 r k)
      = Ideal.div (Sage.agg (Sage.rowOf x1 h1) (Sage.rowOf x2 h2)
            (fun r k => Read.val_main_v27 (F := Ideal) x0 x1 x2 x3 x4 x5 (ix2 r k)) r k)
          (max (Sage.deg (Sage.rowOf x2 h2) r) 1) := by
  rw [Read.val_main_v46_apply, Ideal.hostDivf_def, agg2 x0 x1 x2 x3 x4 x5 h1 h2, Read.val_main_v45_apply,
    Read.val_main_v44_apply, Read.val_main_v43_apply, Ideal.maximumf_def, Read.val_main_v42_apply,
    Read.val_main_cst_9_apply, Ideal.ofBits_def, ofBits_one_f32]
  have hi : Read.idx_main_v44 (Read.idx_main_v45 (ix2 r k)) = ix1 r := ext1 rfl
  rw [hi, deg2 x2 h2]

theorem layer2 (r : Fin 10000) (p : Fin 128) :
    Read.val_main_v55 (F := Ideal) x0 x1 x2 x3 x4 x5 x6 x7 x8 (ix2 r p)
      = Sage.layer (Sage.rowOf x1 h1) (Sage.rowOf x2 h2)
          (fun r k => Read.val_main_v27 (F := Ideal) x0 x1 x2 x3 x4 x5 (ix2 r k)) (fun p k => x6 (ix2 p k))
          (fun p k => x7 (ix2 p k)) (fun p => x8 (ix1 p)) r p := by
  rw [Read.val_main_v55_apply, Ideal.maximumf_def, Read.val_main_call1_v0_apply, Read.val_main_call1_cst_apply,
    Ideal.ofBits_def, Ideal.ofBits_zero_f32, Read.val_main_v54_apply, Ideal.addf_def, Read.val_main_v51_apply,
    Ideal.addf_def, Read.val_main_v48_apply, Read.val_main_v50_apply, Read.val_main_v53_apply, Read.val_main_v52_apply]
  have hb : Read.idx_main_v52 (Read.idx_main_v53 (ix2 r p)) = ix1 p := ext1 rfl
  have hs : ∀ k : Fin 128, Read.val_main_v27 (F := Ideal) x0 x1 x2 x3 x4 x5 (Read.lidx_main_v48 (ix2 r p) k)
      * Read.val_main_v47 (F := Ideal) x6 (Read.ridx_main_v48 (ix2 r p) k)
      = Read.val_main_v27 (F := Ideal) x0 x1 x2 x3 x4 x5 (ix2 r k) * x6 (ix2 p k) := by
    intro k
    have a1 : Read.lidx_main_v48 (ix2 r p) k = ix2 r k := ext2 rfl rfl
    have a2 : Read.idx_main_v47 (Read.ridx_main_v48 (ix2 r p) k) = ix2 p k := ext2 rfl rfl
    rw [Read.val_main_v47_apply, a1, a2]
  have hn : ∀ k : Fin 128, Read.val_main_v46 (F := Ideal) x0 x1 x2 x3 x4 x5 (Read.lidx_main_v50 (ix2 r p) k)
      * Read.val_main_v49 (F := Ideal) x7 (Read.ridx_main_v50 (ix2 r p) k)
      = Ideal.div (Sage.agg (Sage.rowOf x1 h1) (Sage.rowOf x2 h2)
            (fun r k => Read.val_main_v27 (F := Ideal) x0 x1 x2 x3 x4 x5 (ix2 r k)) r k)
          (max (Sage.deg (Sage.rowOf x2 h2) r) 1) * x7 (ix2 p k) := by
    intro k
    have a1 : Read.lidx_main_v50 (ix2 r p) k = ix2 r k := ext2 rfl rfl
    have a2 : Read.idx_main_v49 (Read.ridx_main_v50 (ix2 r p) k) = ix2 p k := ext2 rfl rfl
    rw [Read.val_main_v49_apply, a1, a2, mean2 x0 x1 x2 x3 x4 x5 h1 h2]
  rw [Finset.sum_congr rfl (fun k _ => hs k), Finset.sum_congr rfl (fun k _ => hn k), hb]
  rfl

end Round2

-- The reference's result is two rounds edge by edge.
theorem result_apply (x0 : FVec Ideal S10000x128 .f32) (x1 x2 : IVec S640000 32) (x3 x4 : FVec Ideal S128x128 .f32)
    (x5 : FVec Ideal S128 .f32) (x6 x7 : FVec Ideal S128x128 .f32) (x8 : FVec Ideal S128 .f32)
    (h1 : ∀ i, 0 ≤ (x1 i).toInt ∧ (x1 i).toInt < 10000) (h2 : ∀ i, 0 ≤ (x2 i).toInt ∧ (x2 i).toInt < 10000)
    (r : Fin 10000) (p : Fin 128) :
    Read.val_main_v55 (F := Ideal) x0 x1 x2 x3 x4 x5 x6 x7 x8 (ix2 r p)
      = Sage.net (Sage.rowOf x1 h1) (Sage.rowOf x2 h2) (fun r k => x0 (ix2 r k)) (fun p k => x3 (ix2 p k))
          (fun p k => x4 (ix2 p k)) (fun p => x5 (ix1 p)) (fun p k => x6 (ix2 p k)) (fun p k => x7 (ix2 p k))
          (fun p => x8 (ix1 p)) r p := by
  have hl : (fun r k => Read.val_main_v27 (F := Ideal) x0 x1 x2 x3 x4 x5 (ix2 r k))
      = Sage.layer (Sage.rowOf x1 h1) (Sage.rowOf x2 h2) (fun r k => x0 (ix2 r k)) (fun p k => x3 (ix2 p k))
          (fun p k => x4 (ix2 p k)) (fun p => x5 (ix1 p)) :=
    funext fun r => funext fun k => layer1 x0 x1 x2 x3 x4 x5 h1 h2 r k
  rw [layer2 x0 x1 x2 x3 x4 x5 x6 x7 x8 h1 h2, hl]
  rfl

end Cert.ReferenceIdeal.RefValue

end
-- ==== Proof.PreFacts.lean ====
import proofs.«404208_j53145925321203_2_alg».proof.Pre_finite_inputs
import Idealize.ShloMosaic.Lib.ReduceAll
import Idealize.ShloMosaic.Lib.ValueIdx
import Idealize.ShloMosaic.PureOps.Ideal

namespace Cert.PreFacts

open Idealize.ShloMosaic
open Cert.Pre_finite_inputs

instance : Subsingleton S_.Idx := ⟨fun _ _ => funext fun d => d.elim0⟩

theorem inf_pattern : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : BitVec.ofBool (decide (max x (-x) < Ideal.ofBits .f32 0x7F800000#32)) = 1#1 := h
  rw [inf_pattern] at h'
  by_contra hn
  simp [hn] at h'

theorem finite_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi (cmpf .olt (Host.absf x) (broadcastInDim s ![] hb (constant (F := Ideal) S_ .f32 0x7F800000#32)))
      init hr hu j = 1#1) (i : s.Idx) : ∃ r : ℝ, x i = (r : EReal) :=
  real_of_cmp (x i) (Host.reduce_andi_all _ init hr hu j h i)

theorem nonneg_of_all {s : Shape} {axes : List (Fin s.rank)} (x : IVec s 32)
    (hb : S_.BroadcastsInDim s (![] : Fin 0 → Fin s.rank)) (hr : s.ReducesTo axes S_) (hu : 0 < S_.numel)
    (init : IVec S_ 1) (j : S_.Idx)
    (h : Host.reduce IntOp.andi (cmpi .sge x (broadcastInDim s ![] hb (constantI S_ 32 0#32))) init hr hu j = 1#1)
    (i : s.Idx) : 0 ≤ (x i).toInt := by
  have e : IntOp.cmpi .sge (x i) 0#32 = 1#1 := Host.reduce_andi_all _ init hr hu j h i
  have := IntOp.cmpi_sge.1 e
  simpa using this

theorem lt_of_all {s : Shape} {axes : List (Fin s.rank)} (x : IVec s 32)
    (hb : S_.BroadcastsInDim s (![] : Fin 0 → Fin s.rank)) (hr : s.ReducesTo axes S_) (hu : 0 < S_.numel)
    (init : IVec S_ 1) (j : S_.Idx)
    (h : Host.reduce IntOp.andi (cmpi .slt x (broadcastInDim s ![] hb (constantI S_ 32 10000#32))) init hr hu j = 1#1)
    (i : s.Idx) : (x i).toInt < 10000 := by
  have e : IntOp.cmpi .slt (x i) 10000#32 = 1#1 := Host.reduce_andi_all _ init hr hu j h i
  have := IntOp.cmpi_slt.1 e
  have k : (10000#32 : BitVec 32).toInt = 10000 := by decide
  rwa [k] at this

variable [Facts]

-- The precondition, conjunct by conjunct: every float entry is a real, every edge endpoint a node number.
theorem decode (x0 : FVec Ideal S10000x128 .f32) (x1 x2 : IVec S640000 32) (x3 x4 : FVec Ideal S128x128 .f32)
    (x5 : FVec Ideal S128 .f32) (x6 x7 : FVec Ideal S128x128 .f32) (x8 : FVec Ideal S128 .f32)
    (h : fn (F := Ideal) x0 x1 x2 x3 x4 x5 x6 x7 x8 = fun _ => 1#1) :
    (∀ i, ∃ r : ℝ, x0 i = (r : EReal)) ∧ (∀ i, ∃ r : ℝ, x3 i = (r : EReal)) ∧ (∀ i, ∃ r : ℝ, x4 i = (r : EReal)) ∧
    (∀ i, ∃ r : ℝ, x5 i = (r : EReal)) ∧ (∀ i, ∃ r : ℝ, x6 i = (r : EReal)) ∧ (∀ i, ∃ r : ℝ, x7 i = (r : EReal)) ∧
    (∀ i, ∃ r : ℝ, x8 i = (r : EReal)) ∧
    (∀ i, 0 ≤ (x1 i).toInt ∧ (x1 i).toInt < 10000) ∧ (∀ i, 0 ≤ (x2 i).toInt ∧ (x2 i).toInt < 10000) := by
  have h0 := congrFun h ValueIdx.ix0
  dsimp only [fn, fn_part1, fn_part2, andi] at h0
  simp only [IntOp.andi_eq_one] at h0
  obtain ⟨⟨⟨⟨⟨⟨⟨⟨⟨⟨a0, a3⟩, a4⟩, a5⟩, a6⟩, a7⟩, a8⟩, b1⟩, c1⟩, b2⟩, c2⟩ := h0
  exact ⟨finite_of_all x0 _ _ _ _ _ a0, finite_of_all x3 _ _ _ _ _ a3, finite_of_all x4 _ _ _ _ _ a4,
    finite_of_all x5 _ _ _ _ _ a5, finite_of_all x6 _ _ _ _ _ a6, finite_of_all x7 _ _ _ _ _ a7,
    finite_of_all x8 _ _ _ _ _ a8,
    fun i => ⟨nonneg_of_all x1 _ _ _ _ _ b1 i, lt_of_all x1 _ _ _ _ _ c1 i⟩,
    fun i => ⟨nonneg_of_all x2 _ _ _ _ _ b2 i, lt_of_all x2 _ _ _ _ _ c2 i⟩⟩

end Cert.PreFacts
-- ==== Proof.lean ====
/-
  The kernel program (read at words and at extended reals) and the reference run to the end, fault nowhere and leave
  their arguments as launched; over the extended reals, from memories that agree on the arguments, the idealized kernel
  and the idealized reference both end with two rounds of mean aggregation over the graph.
-/
import proofs.«404208_j53145925321203_2_alg».proof.Defs
import proofs.«404208_j53145925321203_2_alg».proof.Proof.Gen.Kernel
import proofs.«404208_j53145925321203_2_alg».proof.Proof.Gen.KernelIdeal
import proofs.«404208_j53145925321203_2_alg».proof.Proof.Gen.ReferenceIdeal
import proofs.«404208_j53145925321203_2_alg».proof.Proof.Gen.Pre_finite_inputs
import proofs.«404208_j53145925321203_2_alg».proof.Proof.KI.Regs
import proofs.«404208_j53145925321203_2_alg».proof.Proof.SameText
import proofs.«404208_j53145925321203_2_alg».proof.Proof.KernelValue
import proofs.«404208_j53145925321203_2_alg».proof.Proof.RefValue
import proofs.«404208_j53145925321203_2_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

section
open Cert.KernelIdeal Cert.KernelIdeal.Gen

variable {F : FTy → Type} [FloatOps F] (m : (ℓ : Loc nD τ sig) → Buf (Elt F) ℓ)

abbrev Kept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)

-- The arguments outlive every kernel call, and no item of the chain writes them.
theorem args_kept {mem : (ℓ : Loc nD τ sig) → Buf (Elt F) ℓ} (c : Dev nD)
    (h : ∀ b ∈ Pipeline.ucRefs τ sig, mem ((c : Thread nD τ).1, b) = V7 m (Fr.outsB m) c b) : Kept m mem c :=
  have k := fun (a : Ref sig .tc) ha => h (Proc.devRef .tc a) (Finset.mem_filter.mpr ⟨StableHlo.devRef_mem_tcRefs a, ha⟩)
  ⟨(k main_arg0 (by decide)).trans (V7_main_arg0 m _ c),
    (k main_arg1 (by decide)).trans (V7_main_arg1 m _ c),
    (k main_arg2 (by decide)).trans (V7_main_arg2 m _ c),
    (k main_arg3 (by decide)).trans (V7_main_arg3 m _ c),
    (k main_arg4 (by decide)).trans (V7_main_arg4 m _ c),
    (k main_arg5 (by decide)).trans (V7_main_arg5 m _ c),
    (k main_arg6 (by decide)).trans (V7_main_arg6 m _ c),
    (k main_arg7 (by decide)).trans (V7_main_arg7 m _ c),
    (k main_arg8 (by decide)).trans (V7_main_arg8 m _ c)⟩

-- The program's text, read over any number system, runs to the end and leaves its arguments as launched.
theorem frame (ρ : Dev nD → PrngReg) :
    θ_run (defs (F := F)) (onTc (τ := τ) (main (F := F))) ⟨m, fun _ => 0, ρ⟩ (fun r => ∀ c : Dev nD, Kept m r.2.mem c) :=
  (θ_run (defs (F := F)) _ _).mono (fun r h c => args_kept m c (h c)) (Fr.run_main m ρ)

end

-- The word-level program is the idealized program's text, read at words.
theorem frame_kernel [Cert.Kernel.Facts] [Cert.Pre_finite_inputs.Facts] : Cert.frame_Kernel := fun m ρ _ => by
  rw [defs_eq, main_eq]; exact frame (F := Bits) m ρ

theorem frame_kernelIdeal [Cert.KernelIdeal.Facts] [Cert.Pre_finite_inputs.Facts] : Cert.frame_KernelIdeal :=
  fun m ρ _ => frame (F := Ideal) m ρ

theorem frame_referenceIdeal [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.ReferenceIdeal.Read.val_main_v55 (F := Ideal)
      (Cert.KernelIdeal.HostValue.arg0 m c) (Cert.KernelIdeal.HostValue.arg1 m c) (Cert.KernelIdeal.HostValue.arg2 m c)
      (Cert.KernelIdeal.HostValue.arg3 m c) (Cert.KernelIdeal.HostValue.arg4 m c) (Cert.KernelIdeal.HostValue.arg5 m c)
      (Cert.KernelIdeal.HostValue.arg6 m c) (Cert.KernelIdeal.HostValue.arg7 m c) (Cert.KernelIdeal.HostValue.arg8 m c), ?_, ?_⟩
  · refine (θ_run (Cert.KernelIdeal.defs (F := Ideal)) _ _).mono (fun r h c => ⟨?_, args_kept m c (h c)⟩) (Cert.KernelIdeal.Fr.run_main m ρ)
    obtain ⟨f0, f3, f4, f5, -, -, -, hs, hd⟩ := Cert.PreFacts.decode _ _ _ _ _ _ _ _ _ (hpre c)
    refine (h c (Proc.devRef .tc Cert.KernelIdeal.main_v40) (Finset.mem_filter.mpr ⟨StableHlo.devRef_mem_tcRefs Cert.KernelIdeal.main_v40, by decide⟩)).trans ?_
    funext i
    obtain ⟨a, b, rfl⟩ : ∃ (a : Fin 10000) (b : Fin 128), i = ix2 a b := ⟨i 0, i 1, eq_ix2 i⟩
    exact (Cert.KernelIdeal.Result.result_apply m c hs hd f0 f3 f4 f5 a b).trans
      (Cert.ReferenceIdeal.RefValue.result_apply _ _ _ _ _ _ _ _ _ hs hd a b).symm
  · refine (θ_run Cert.ReferenceIdeal.defs _ _).mono (fun _ h c => ⟨?_, (h c).2⟩) (Cert.ReferenceIdeal.Value.run (F := Ideal) m' ρ')
    rw [(h c).1, Cert.ReferenceIdeal.Read.val_main_v55_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    @frame_kernel Cert.Kernel.Gen.facts Cert.Pre_finite_inputs.Gen.facts,
    @frame_kernelIdeal Cert.KernelIdeal.Gen.facts Cert.Pre_finite_inputs.Gen.facts,
    @frame_referenceIdeal Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
